-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S2x800000 : Shape := ⟨2, ![2, 800000]⟩
abbrev S800000x64 : Shape := ⟨2, ![800000, 64]⟩
abbrev S8x64 : Shape := ⟨2, ![8, 64]⟩
abbrev S50000 : Shape := ⟨1, ![50000]⟩
abbrev S128x128 : Shape := ⟨2, ![128, 128]⟩
abbrev S128 : Shape := ⟨1, ![128]⟩
abbrev S705x128 : Shape := ⟨2, ![705, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S800000x64 : S_.BroadcastsInDim S800000x64 (![] : Fin 0 → Fin S800000x64.rank)
  reducesTo_S800000x64_S_d0_1 : S800000x64.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S705x128 : S_.BroadcastsInDim S705x128 (![] : Fin 0 → Fin S705x128.rank)
  reducesTo_S705x128_S_d0_1 : S705x128.ReducesTo [0, 1] S_
  bcast_S_S2x800000 : S_.BroadcastsInDim S2x800000 (![] : Fin 0 → Fin S2x800000.rank)
  reducesTo_S2x800000_S_d0_1 : S2x800000.ReducesTo [0, 1] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg5 : IVec S50000 32) (main_v65 : IVec S_ 1) (main_v67 : IVec S50000 1) : IVec S_ 1 :=
  let main_c_26 : IVec S_ 32 := constantI S_ 32 8#32
  let main_v68 : IVec S50000 32 := broadcastInDim S50000 ![] bcast_S_S50000 main_c_26
  let main_v69 : IVec S50000 1 := cmpi .slt main_arg5 main_v68
  let main_v70 : IVec S50000 1 := andi main_v67 main_v69
  let main_c_27 : IVec S_ 1 := constantI S_ 1 1#1
  let main_v71 : IVec S_ 1 := (fun x v => Host.reduce IntOp.andi x v reducesTo_S50000_S_d0 h_S_) main_v70 main_c_27
  let main_v72 : IVec S_ 1 := andi main_v65 main_v71
  main_v72

def fn_part3 {F : FTy → Type} [FloatOps F] (main_arg2 : IVec S2x800000 32) (main_arg5 : IVec S50000 32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x800000 32 := broadcastInDim S2x800000 ![] bcast_S_S2x800000 main_c_22
  let main_v60 : IVec S2x800000 1 := cmpi .sge main_arg2 main_v59
  let main_c_23 : IVec S_ 32 := constantI S_ 32 50000#32
  let main_v61 : IVec S2x800000 32 := broadcastInDim S2x800000 ![] bcast_S_S2x800000 main_c_23
  let main_v62 : IVec S2x800000 1 := cmpi .slt main_arg2 main_v61
  let main_v63 : IVec S2x800000 1 := andi main_v60 main_v62
  let main_c_24 : IVec S_ 1 := constantI S_ 1 1#1
  let main_v64 : IVec S_ 1 := (fun x v => Host.reduce IntOp.andi x v reducesTo_S2x800000_S_d0_1 h_S_) main_v63 main_c_24
  let main_v65 : IVec S_ 1 := andi main_v58 main_v64
  let main_c_25 : IVec S_ 32 := constantI S_ 32 0#32
  let main_v66 : IVec S50000 32 := broadcastInDim S50000 ![] bcast_S_S50000 main_c_25
  let main_v67 : IVec S50000 1 := cmpi .sge main_arg5 main_v66
  fn_part4 (F := F) main_arg5 main_v65 main_v67

def fn_part2 {F : FTy → Type} [FloatOps F] (main_arg2 : IVec S2x800000 32) (main_arg5 : IVec S50000 32) (main_arg9 : FVec F S128 .f32) (main_arg10 : FVec F S705x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S705x128 .f32 := Host.absf main_arg10
  let main_cst_14 : FVec F S_ .f32 := constant S_ .f32 0x7F800000#32
  let main_v40 : FVec F S705x128 .f32 := broadcastInDim S705x128 ![] bcast_S_S705x128 main_cst_14
  let main_v41 : IVec S705x128 1 := cmpf .olt main_v39 main_v40
  let main_c_15 : IVec S_ 1 := constantI S_ 1 1#1
  let main_v42 : IVec S_ 1 := (fun x v => Host.reduce IntOp.andi x v reducesTo_S705x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg5 main_arg13 main_v48 main_v49 main_v50

def fn_part1 {F : FTy → Type} [FloatOps F] (main_arg2 : IVec S2x800000 32) (main_arg5 : IVec S50000 32) (main_arg6 : FVec F S128x128 .f32) (main_arg7 : FVec F S128 .f32) (main_arg8 : FVec F S128x128 .f32) (main_arg9 : FVec F S128 .f32) (main_arg10 : FVec F S705x128 .f32) (main_arg11 : FVec F S128 .f32) (main_arg12 : FVec F S128x128 .f32) (main_arg13 : FVec F S128 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg5 main_arg9 main_arg10 main_arg11 main_arg12 main_arg13 main_v33

def fn {F : FTy → Type} [FloatOps F] (main_arg0 : FVec F S50000x128 .f32) (main_arg1 : FVec F S50000x64 .f32) (main_arg2 : IVec S2x800000 32) (main_arg3 : FVec F S800000x64 .f32) (main_arg4 : FVec F S8x64 .f32) (main_arg5 : IVec S50000 32) (main_arg6 : FVec F S128x128 .f32) (main_arg7 : FVec F S128 .f32) (main_arg8 : FVec F S128x128 .f32) (main_arg9 : FVec F S128 .f32) (main_arg10 : FVec F S705x128 .f32) (main_arg11 : FVec F S128 .f32) (main_arg12 : FVec F S128x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000x64 .f32 := Host.absf main_arg3
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg2 main_arg5 main_arg6 main_arg7 main_arg8 main_arg9 main_arg10 main_arg11 main_arg12 main_arg13 main_v13 main_v16
-- ==== Kernel.lean ====
abbrev S50000x128 : Shape := ⟨2, ![50000, 128]⟩
abbrev S50000x64 : Shape := ⟨2, ![50000, 64]⟩
abbrev S2x800000 : Shape := ⟨2, ![2, 800000]⟩
abbrev S800000x64 : Shape := ⟨2, ![800000, 64]⟩
abbrev S8x64 : Shape := ⟨2, ![8, 64]⟩
abbrev S50000 : Shape := ⟨1, ![50000]⟩
abbrev S128x128 : Shape := ⟨2, ![128, 128]⟩
abbrev S128 : Shape := ⟨1, ![128]⟩
abbrev S705x128 : Shape := ⟨2, ![705, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S64x128 : Shape := ⟨2, ![64, 128]⟩
abbrev S1x128 : Shape := ⟨2, ![1, 128]⟩
abbrev S800000x128 : Shape := ⟨2, ![800000, 128]⟩
abbrev S5000x64 : Shape := ⟨2, ![5000, 64]⟩
abbrev S5000x128 : Shape := ⟨2, ![5000, 128]⟩
abbrev S800000x257 : Shape := ⟨2, ![800000, 257]⟩
abbrev S50000x257 : Shape := ⟨2, ![50000, 257]⟩
abbrev S50000x1 : Shape := ⟨2, ![50000, 1]⟩
abbrev S800000x256 : Shape := ⟨2, ![800000, 256]⟩
abbrev S50000x256 : Shape := ⟨2, ![50000, 256]⟩
abbrev S2000x128 : Shape := ⟨2, ![2000, 128]⟩
abbrev S2000x1 : Shape := ⟨2, ![2000, 1]⟩
abbrev S2000x64 : Shape := ⟨2, ![2000, 64]⟩

abbrev nBuf : Space → Nat
  | .hbm => 218
  | .vmem => 37
  | .smem => 0
  | _ => 0

abbrev hbmTy0_0 (i : Nat) : BufTy := match i % 128 with
  | 0 => ⟨S50000x128, .f32⟩
  | 1 => ⟨S50000x64, .f32⟩
  | 2 => ⟨S2x800000, .i32⟩
  | 3 => ⟨S800000x64, .f32⟩
  | 4 => ⟨S8x64, .f32⟩
  | 5 => ⟨S50000, .i32⟩
  | 6 => ⟨S128x128, .f32⟩
  | 7 => ⟨S128, .f32⟩
  | 8 => ⟨S128x128, .f32⟩
  | 9 => ⟨S128, .f32⟩
  | 10 => ⟨S705x128, .f32⟩
  | 11 => ⟨S128, .f32⟩
  | 12 => ⟨S128x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x64, .f32⟩
  | 37 => ⟨S800000x64, .i1⟩
  | 38 => ⟨S_, .f32⟩
  | 39 => ⟨S800000x64, .f32⟩
  | 40 => ⟨S800000x64, .f32⟩
  | 41 => ⟨S64x128, .f32⟩
  | 42 => ⟨S64x128, .f32⟩
  | 43 => ⟨S1x128, .f32⟩
  | 44 => ⟨S1x128, .f32⟩
  | 45 => ⟨S800000x128, .f32⟩
  | 46 => ⟨S_, .f32⟩
  | 47 => ⟨S800000x1, .f32⟩
  | 48 => ⟨S800000x128, .f32⟩
  | 49 => ⟨S800000x257, .f32⟩
  | 50 => ⟨S_, .f32⟩
  | 51 => ⟨S50000x257, .f32⟩
  | 52 => ⟨S800000x1, .i32⟩
  | 53 => ⟨S50000x257, .f32⟩
  | 54 => ⟨S50000x1, .f32⟩
  | 55 => ⟨S_, .f32⟩
  | 56 => ⟨S50000x1, .f32⟩
  | 57 => ⟨S50000x1, .f32⟩
  | 58 => ⟨S50000x128, .f32⟩
  | 59 => ⟨S50000x128, .f32⟩
  | 60 => ⟨S50000x128, .f32⟩
  | 61 => ⟨S50000x128, .f32⟩
  | 62 => ⟨S50000x128, .f32⟩
  | 63 => ⟨S50000x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S1, .i32⟩
  | 82 => ⟨S_, .i32⟩
  | 83 => ⟨S800000x1, .i32⟩
  | 84 => ⟨S800000x1, .i1⟩
  | 85 => ⟨S1x1, .i32⟩
  | 86 => ⟨S800000x1, .i32⟩
  | 87 => ⟨S800000x1, .i1⟩
  | 88 => ⟨S800000x1, .i1⟩
  | 89 => ⟨S_, .i1⟩
  | 90 => ⟨S800000, .i1⟩
  | 91 => ⟨S800000x128, .f32⟩
  | 92 => ⟨S800000x128, .i1⟩
  | 93 => ⟨S_, .f32⟩
  | 94 => ⟨S800000x128, .f32⟩
  | 95 => ⟨S800000x128, .f32⟩
  | 96 => ⟨S800000x128, .f32⟩
  | 97 => ⟨S800000x128, .f32⟩
  | 98 => ⟨S800000x128, .f32⟩
  | 99 => ⟨S800000x128, .f32⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S50000x128, .f32⟩
  | 106 => ⟨S50000x128, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S50000x128, .f32⟩
  | 115 => ⟨S50000x128, .f32⟩
  | 116 => ⟨S50000x128, .f32⟩
  | 117 => ⟨S50000x128, .i1⟩
  | 118 => ⟨S_, .f32⟩
  | 119 => ⟨S50000x128, .f32⟩
  | 120 => ⟨S50000x128, .f32⟩
  | 121 => ⟨S_, .f32⟩
  | 122 => ⟨S50000x128, .f32⟩
  | 123 => ⟨S50000x128, .i1⟩
  | 124 => ⟨S_, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .i1⟩
  | 2 => ⟨S_, .f32⟩
  | 3 => ⟨S50000x128, .f32⟩
  | 4 => ⟨S50000x128, .f32⟩
  | 5 => ⟨S50000x128, .i1⟩
  | 6 => ⟨S_, .f32⟩
  | 7 => ⟨S50000x128, .f32⟩
  | 8 => ⟨S50000x128, .f32⟩
  | 9 => ⟨S_, .f32⟩
  | 10 => ⟨S50000x128, .f32⟩
  | 11 => ⟨S50000x128, .i1⟩
  | 12 => ⟨S_, .f32⟩
  | 13 => ⟨S50000x128, .f32⟩
  | 14 => ⟨S50000x128, .f32⟩
  | 15 => ⟨S_, .f32⟩
  | 16 => ⟨S50000x128, .f32⟩
  | 17 => ⟨S50000x128, .i1⟩
  | 18 => ⟨S_, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | 25 => ⟨S50000x128, .i1⟩
  | 26 => ⟨S_, .f32⟩
  | 27 => ⟨S50000x128, .f32⟩
  | 28 => ⟨S50000x128, .f32⟩
  | 29 => ⟨S_, .f32⟩
  | 30 => ⟨S50000x128, .f32⟩
  | 31 => ⟨S50000x128, .i1⟩
  | 32 => ⟨S_, .f32⟩
  | 33 => ⟨S50000x128, .f32⟩
  | 34 => ⟨S50000x128, .f32⟩
  | 35 => ⟨S_, .f32⟩
  | 36 => ⟨S50000x128, .f32⟩
  | 37 => ⟨S50000x128, .i1⟩
  | 38 => ⟨S_, .f32⟩
  | 39 => ⟨S50000x128, .f32⟩
  | 40 => ⟨S50000x128, .f32⟩
  | 41 => ⟨S50000x128, .i1⟩
  | 42 => ⟨S_, .f32⟩
  | 43 => ⟨S50000x128, .f32⟩
  | 44 => ⟨S50000x128, .f32⟩
  | 45 => ⟨S_, .f32⟩
  | 46 => ⟨S50000x128, .f32⟩
  | 47 => ⟨S50000x128, .i1⟩
  | 48 => ⟨S_, .f32⟩
  | 49 => ⟨S50000x128, .f32⟩
  | 50 => ⟨S50000x128, .f32⟩
  | 51 => ⟨S_, .f32⟩
  | 52 => ⟨S50000x128, .f32⟩
  | 53 => ⟨S50000x128, .i1⟩
  | 54 => ⟨S_, .f32⟩
  | 55 => ⟨S50000x128, .f32⟩
  | 56 => ⟨S50000x128, .f32⟩
  | 57 => ⟨S_, .i32⟩
  | 58 => ⟨S50000, .i32⟩
  | 59 => ⟨S50000, .i1⟩
  | 60 => ⟨S_, .i32⟩
  | 61 => ⟨S50000, .i32⟩
  | 62 => ⟨S50000, .i32⟩
  | 63 => ⟨S50000, .i32⟩
  | 64 => ⟨S50000x1, .i32⟩
  | 65 => ⟨S1, .i32⟩
  | 66 => ⟨S_, .i32⟩
  | 67 => ⟨S50000x1, .i32⟩
  | 68 => ⟨S50000x1, .i1⟩
  | 69 => ⟨S1x1, .i32⟩
  | 70 => ⟨S50000x1, .i32⟩
  | 71 => ⟨S50000x1, .i1⟩
  | 72 => ⟨S50000x1, .i1⟩
  | 73 => ⟨S_, .i1⟩
  | 74 => ⟨S50000, .i1⟩
  | 75 => ⟨S50000x64, .f32⟩
  | 76 => ⟨S50000x64, .i1⟩
  | 77 => ⟨S_, .f32⟩
  | 78 => ⟨S50000x64, .f32⟩
  | 79 => ⟨S50000x64, .f32⟩
  | 80 => ⟨S128x128, .f32⟩
  | 81 => ⟨S1x128, .f32⟩
  | 82 => ⟨S128x128, .f32⟩
  | 83 => ⟨S128x128, .f32⟩
  | 84 => ⟨S128x128, .f32⟩
  | 85 => ⟨S128x128, .f32⟩
  | 86 => ⟨S64x128, .f32⟩
  | 87 => ⟨S1x128, .f32⟩
  | 88 => ⟨S1x128, .f32⟩
  | 89 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x64, .f32⟩
  | .local _ .vmem, ⟨24, _⟩ => ⟨S2000x64, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S64x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S2000x128, .f32⟩
  | .local _ .vmem, ⟨36, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_cst_0 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_call1_cst : Ref sig .tc := ⟨.hbm, 66, rfl⟩
abbrev main_call1_v0 : Ref sig .tc := ⟨.hbm, 67, rfl⟩
abbrev main_v27 : Ref sig .tc := ⟨.hbm, 68, rfl⟩
abbrev main_cst_2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_cst_3 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_call3_v0 : Ref sig .tc := ⟨.hbm, 117, rfl⟩
abbrev main_call3_cst : Ref sig .tc := ⟨.hbm, 118, rfl⟩
abbrev main_call3_call0_v0 : Ref sig .tc := ⟨.hbm, 119, rfl⟩
abbrev main_call3_v1 : Ref sig .tc := ⟨.hbm, 120, rfl⟩
abbrev main_call3_cst_0 : Ref sig .tc := ⟨.hbm, 121, rfl⟩
abbrev main_call3_v2 : Ref sig .tc := ⟨.hbm, 122, rfl⟩
abbrev main_call3_v3 : Ref sig .tc := ⟨.hbm, 123, rfl⟩
abbrev main_call3_cst_1 : Ref sig .tc := ⟨.hbm, 124, rfl⟩
abbrev main_call3_call1_v0 : Ref sig .tc := ⟨.hbm, 125, rfl⟩
abbrev main_call3_v4 : Ref sig .tc := ⟨.hbm, 126, rfl⟩
abbrev main_call3_cst_2 : Ref sig .tc := ⟨.hbm, 127, rfl⟩
abbrev main_call3_v5 : Ref sig .tc := ⟨.hbm, 128, rfl⟩
abbrev main_call3_v6 : Ref sig .tc := ⟨.hbm, 129, rfl⟩
abbrev main_call3_cst_3 : Ref sig .tc := ⟨.hbm, 130, rfl⟩
abbrev main_call3_call2_v0 : Ref sig .tc := ⟨.hbm, 131, rfl⟩
abbrev main_v52 : Ref sig .tc := ⟨.hbm, 132, rfl⟩
abbrev main_call4_v0 : Ref sig .tc := ⟨.hbm, 133, rfl⟩
abbrev main_call4_cst : Ref sig .tc := ⟨.hbm, 134, rfl⟩
abbrev main_call4_call0_v0 : Ref sig .tc := ⟨.hbm, 135, rfl⟩
abbrev main_call4_v1 : Ref sig .tc := ⟨.hbm, 136, rfl⟩
abbrev main_call4_cst_0 : Ref sig .tc := ⟨.hbm, 137, rfl⟩
abbrev main_call4_v2 : Ref sig .tc := ⟨.hbm, 138, rfl⟩
abbrev main_call4_v3 : Ref sig .tc := ⟨.hbm, 139, rfl⟩
abbrev main_call4_cst_1 : Ref sig .tc := ⟨.hbm, 140, rfl⟩
abbrev main_call4_call1_v0 : Ref sig .tc := ⟨.hbm, 141, rfl⟩
abbrev main_call4_v4 : Ref sig .tc := ⟨.hbm, 142, rfl⟩
abbrev main_call4_cst_2 : Ref sig .tc := ⟨.hbm, 143, rfl⟩
abbrev main_call4_v5 : Ref sig .tc := ⟨.hbm, 144, rfl⟩
abbrev main_call4_v6 : Ref sig .tc := ⟨.hbm, 145, rfl⟩
abbrev main_call4_cst_3 : Ref sig .tc := ⟨.hbm, 146, rfl⟩
abbrev main_call4_call2_v0 : Ref sig .tc := ⟨.hbm, 147, rfl⟩
abbrev main_v53 : Ref sig .tc := ⟨.hbm, 148, rfl⟩
abbrev main_cst_4 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_call5_v0 : Ref sig .tc := ⟨.hbm, 153, rfl⟩
abbrev main_call5_cst : Ref sig .tc := ⟨.hbm, 154, rfl⟩
abbrev main_call5_call0_v0 : Ref sig .tc := ⟨.hbm, 155, rfl⟩
abbrev main_call5_v1 : Ref sig .tc := ⟨.hbm, 156, rfl⟩
abbrev main_call5_cst_0 : Ref sig .tc := ⟨.hbm, 157, rfl⟩
abbrev main_call5_v2 : Ref sig .tc := ⟨.hbm, 158, rfl⟩
abbrev main_call5_v3 : Ref sig .tc := ⟨.hbm, 159, rfl⟩
abbrev main_call5_cst_1 : Ref sig .tc := ⟨.hbm, 160, rfl⟩
abbrev main_call5_call1_v0 : Ref sig .tc := ⟨.hbm, 161, rfl⟩
abbrev main_call5_v4 : Ref sig .tc := ⟨.hbm, 162, rfl⟩
abbrev main_call5_cst_2 : Ref sig .tc := ⟨.hbm, 163, rfl⟩
abbrev main_call5_v5 : Ref sig .tc := ⟨.hbm, 164, rfl⟩
abbrev main_call5_v6 : Ref sig .tc := ⟨.hbm, 165, rfl⟩
abbrev main_call5_cst_3 : Ref sig .tc := ⟨.hbm, 166, rfl⟩
abbrev main_call5_call2_v0 : Ref sig .tc := ⟨.hbm, 167, rfl⟩
abbrev main_v57 : Ref sig .tc := ⟨.hbm, 168, rfl⟩
abbrev main_call6_v0 : Ref sig .tc := ⟨.hbm, 169, rfl⟩
abbrev main_call6_cst : Ref sig .tc := ⟨.hbm, 170, rfl⟩
abbrev main_call6_call0_v0 : Ref sig .tc := ⟨.hbm, 171, rfl⟩
abbrev main_call6_v1 : Ref sig .tc := ⟨.hbm, 172, rfl⟩
abbrev main_call6_cst_0 : Ref sig .tc := ⟨.hbm, 173, rfl⟩
abbrev main_call6_v2 : Ref sig .tc := ⟨.hbm, 174, rfl⟩
abbrev main_call6_v3 : Ref sig .tc := ⟨.hbm, 175, rfl⟩
abbrev main_call6_cst_1 : Ref sig .tc := ⟨.hbm, 176, rfl⟩
abbrev main_call6_call1_v0 : Ref sig .tc := ⟨.hbm, 177, rfl⟩
abbrev main_call6_v4 : Ref sig .tc := ⟨.hbm, 178, rfl⟩
abbrev main_call6_cst_2 : Ref sig .tc := ⟨.hbm, 179, rfl⟩
abbrev main_call6_v5 : Ref sig .tc := ⟨.hbm, 180, rfl⟩
abbrev main_call6_v6 : Ref sig .tc := ⟨.hbm, 181, rfl⟩
abbrev main_call6_cst_3 : Ref sig .tc := ⟨.hbm, 182, rfl⟩
abbrev main_call6_call2_v0 : Ref sig .tc := ⟨.hbm, 183, rfl⟩
abbrev main_v58 : Ref sig .tc := ⟨.hbm, 184, rfl⟩
abbrev main_call7_c : Ref sig .tc := ⟨.hbm, 185, rfl⟩
abbrev main_call7_v0 : Ref sig .tc := ⟨.hbm, 186, rfl⟩
abbrev main_call7_v1 : Ref sig .tc := ⟨.hbm, 187, rfl⟩
abbrev main_call7_c_0 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_call7_v5 : Ref sig .tc := ⟨.hbm, 192, rfl⟩
abbrev main_call7_c_1 : Ref sig .tc := ⟨.hbm, 193, rfl⟩
abbrev main_call7_c_2 : Ref sig .tc := ⟨.hbm, 194, rfl⟩
abbrev main_call7_v6 : Ref sig .tc := ⟨.hbm, 195, rfl⟩
abbrev main_call7_v7 : Ref sig .tc := ⟨.hbm, 196, rfl⟩
abbrev main_call7_v8 : Ref sig .tc := ⟨.hbm, 197, rfl⟩
abbrev main_call7_v9 : Ref sig .tc := ⟨.hbm, 198, rfl⟩
abbrev main_call7_v10 : Ref sig .tc := ⟨.hbm, 199, rfl⟩
abbrev main_call7_v11 : Ref sig .tc := ⟨.hbm, 200, rfl⟩
abbrev main_call7_c_3 : Ref sig .tc := ⟨.hbm, 201, rfl⟩
abbrev main_call7_v12 : Ref sig .tc := ⟨.hbm, 202, rfl⟩
abbrev main_call7_v13 : Ref sig .tc := ⟨.hbm, 203, rfl⟩
abbrev main_call7_v14 : Ref sig .tc := ⟨.hbm, 204, rfl⟩
abbrev main_call7_cst : Ref sig .tc := ⟨.hbm, 205, rfl⟩
abbrev main_call7_v15 : Ref sig .tc := ⟨.hbm, 206, rfl⟩
abbrev main_v59 : Ref sig .tc := ⟨.hbm, 207, rfl⟩
abbrev main_v60 : Ref sig .tc := ⟨.hbm, 208, rfl⟩
abbrev main_v61 : Ref sig .tc := ⟨.hbm, 209, rfl⟩
abbrev main_v62 : Ref sig .tc := ⟨.hbm, 210, rfl⟩
abbrev main_v63 : Ref sig .tc := ⟨.hbm, 211, rfl⟩
abbrev main_v64 : Ref sig .tc := ⟨.hbm, 212, rfl⟩
abbrev main_v65 : Ref sig .tc := ⟨.hbm, 213, rfl⟩
abbrev main_v66 : Ref sig .tc := ⟨.hbm, 214, rfl⟩
abbrev main_v67 : Ref sig .tc := ⟨.hbm, 215, rfl⟩
abbrev main_v68 : Ref sig .tc := ⟨.hbm, 216, rfl⟩
abbrev main_v69 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg15_0 : Ref sig .tc := ⟨.vmem, 33, rfl⟩
abbrev cc1_stg16_0 : Ref sig .tc := ⟨.vmem, 34, rfl⟩
abbrev cc1_stg17_0 : Ref sig .tc := ⟨.vmem, 35, rfl⟩
abbrev cc1_stg17_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem16_0 : DmaSem sig := 34
abbrev cc1_sem17_0 : DmaSem sig := 35
abbrev cc1_sem17_1 : DmaSem sig := 36

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S2000x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S128x128_S64x128_0_0 : S128x128.Slices ![0, 0] S64x128
  slices_S128x128_S64x128_64_0 : S128x128.Slices ![64, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  concatenates_S800000x1_S800000x128_S800000x128_S800000x257_d1 : Shape.Concatenates [S800000x1, S800000x128, S800000x128] S800000x257 1
  bcast_S_S50000x257 : S_.BroadcastsInDim S50000x257 (![] : Fin 0 → Fin S50000x257.rank)
  slices_S50000x257_S50000x1_0_0 : S50000x257.Slices ![0, 0] S50000x1
  bcast_S_S50000x1 : S_.BroadcastsInDim S50000x1 (![] : Fin 0 → Fin S50000x1.rank)
  slices_S50000x257_S50000x128_0_1 : S50000x257.Slices ![0, 1] S50000x128
  bcast_S50000x1_S50000x128_0_1 : S50000x1.BroadcastsInDim S50000x128 (![0, 1] : Fin 2 → Fin S50000x128.rank)
  slices_S50000x257_S50000x128_0_129 : S50000x257.Slices ![0, 129] S50000x128
  bcast_S_S50000x128 : S_.BroadcastsInDim S50000x128 (![] : Fin 0 → Fin S50000x128.rank)
  bcast_S800000_S800000x128_0 : S800000.BroadcastsInDim S800000x128 (![0] : Fin 1 → Fin S800000x128.rank)
  bcast_S_S800000x128 : S_.BroadcastsInDim S800000x128 (![] : Fin 0 → Fin S800000x128.rank)
  concatenates_S800000x128_S800000x128_S800000x256_d1 : Shape.Concatenates [S800000x128, S800000x128] S800000x256 1
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  bcast_S_S50000 : S_.BroadcastsInDim S50000 (![] : Fin 0 → Fin S50000.rank)
  bcast_S50000_S50000x1_0 : S50000.BroadcastsInDim S50000x1 (![0] : Fin 1 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x64_0 : S50000.BroadcastsInDim S50000x64 (![0] : Fin 1 → Fin S50000x64.rank)
  bcast_S_S50000x64 : S_.BroadcastsInDim S50000x64 (![] : Fin 0 → Fin S50000x64.rank)
  slices_S705x128_S128x128_0_0 : S705x128.Slices ![0, 0] S128x128
  slices_S705x128_S1x128_128_0 : S705x128.Slices ![128, 0] S1x128
  slices_S705x128_S128x128_129_0 : S705x128.Slices ![129, 0] S128x128
  slices_S705x128_S128x128_257_0 : S705x128.Slices ![257, 0] S128x128
  slices_S705x128_S128x128_385_0 : S705x128.Slices ![385, 0] S128x128
  slices_S705x128_S128x128_513_0 : S705x128.Slices ![513, 0] S128x128
  slices_S705x128_S64x128_641_0 : S705x128.Slices ![641, 0] S64x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  gather_S50000x64_S800000x1_S800000x64_1_0_n_n_0_1_164_wf : GatherDims.WF S50000x64 S800000x1 S800000x64 [1] [0] [] [0] [] 1 ![1, 64]
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  scatter_S50000x257_S800000x1_S800000x257_1_0_0_1_wf : ScatterDims.WF S50000x257 S800000x1 S800000x257 [1] [0] [0] 1
  gather_S50000x128_S800000x1_S800000x128_1_0_n_n_0_1_1128_wf : GatherDims.WF S50000x128 S800000x1 S800000x128 [1] [0] [] [0] [] 1 ![1, 128]
  scatter_S50000x256_S800000x1_S800000x256_1_0_0_1_wf : ScatterDims.WF S50000x256 S800000x1 S800000x256 [1] [0] [0] 1
  gather_S8x64_S50000x1_S50000x64_1_0_n_n_0_1_164_wf : GatherDims.WF S8x64 S50000x1 S50000x64 [1] [0] [] [0] [] 1 ![1, 64]
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S800000x64.size a
  hwx0_0 : ∀ i : grid0.Coords, EltTy.bits .f32 = 32 ∨ (Rect.block (s := S800000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .f32 = 32 ∨ (Rect.block (s := S800000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S800000x128.size a
  hwx0_7 : ∀ i : grid0.Coords, EltTy.bits .f32 = 32 ∨ (Rect.block (s := S800000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x128.size a ≤ S64x128.size a
  hwx1_13 : ∀ i : grid1.Coords, EltTy.bits .f32 = 32 ∨ (Rect.block (s := S64x128) S64x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128x128.size a ≤ S128x128.size a
  hwx1_15 : ∀ i : grid1.Coords, EltTy.bits .f32 = 32 ∨ (Rect.block (s := S128x128) S128x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x128.size a ≤ S1x128.size a
  hwx1_16 : ∀ i : grid1.Coords, EltTy.bits .f32 = 32 ∨ (Rect.block (s := S1x128) S1x128.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S2000x128.size a ≤ S50000x128.size a
  hwx1_17 : ∀ i : grid1.Coords, EltTy.bits .f32 = 32 ∨ (Rect.block (s := S50000x128) S2000x128.size (cc1_transform_17 i) (hinb1_17 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x257_S800000x1_S800000x257_1_0_0_1 : ScatterDims S50000x257 S800000x1 S800000x257 where
  updateWindowDims := [1]
  insertedWindowDims := [0]
  scatterDimsToOperandDims := [0]
  indexVectorDim := 1
  wf := scatter_S50000x257_S800000x1_S800000x257_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S8x64_S50000x1_S50000x64_1_0_n_n_0_1_164 : GatherDims S8x64 S50000x1 S50000x64 where
  offsetDims := [1]
  collapsedSliceDims := [0]
  operandBatchingDims := []
  startIndicesBatchingDims := []
  startIndexMap := [0]
  indexVectorDim := 1
  sliceSizes := ![1, 64]
  wf := gather_S8x64_S50000x1_S50000x64_1_0_n_n_0_1_164_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_v4) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v57) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v58) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v59) S2000x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v60) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v62) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v63) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v64) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v65) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v66) S64x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v67) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg12) S128x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v68) S1x128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v69) S2000x128.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S2x800000 : Shape := ⟨2, ![2, 800000]⟩
abbrev S800000x64 : Shape := ⟨2, ![800000, 64]⟩
abbrev S8x64 : Shape := ⟨2, ![8, 64]⟩
abbrev S50000 : Shape := ⟨1, ![50000]⟩
abbrev S128x128 : Shape := ⟨2, ![128, 128]⟩
abbrev S128 : Shape := ⟨1, ![128]⟩
abbrev S705x128 : Shape := ⟨2, ![705, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S50000x705 : Shape := ⟨2, ![50000, 705]⟩

abbrev nBuf : Space → Nat
  | .hbm => 200
  | .vmem => 0
  | .smem => 0
  | _ => 0

abbrev hbmTy0_0 (i : Nat) : BufTy := match i % 128 with
  | 0 => ⟨S50000x128, .f32⟩
  | 1 => ⟨S50000x64, .f32⟩
  | 2 => ⟨S2x800000, .i32⟩
  | 3 => ⟨S800000x64, .f32⟩
  | 4 => ⟨S8x64, .f32⟩
  | 5 => ⟨S50000, .i32⟩
  | 6 => ⟨S128x128, .f32⟩
  | 7 => ⟨S128, .f32⟩
  | 8 => ⟨S128x128, .f32⟩
  | 9 => ⟨S128, .f32⟩
  | 10 => ⟨S705x128, .f32⟩
  | 11 => ⟨S128, .f32⟩
  | 12 => ⟨S128x128, .f32⟩
  | 13 => ⟨S128, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S800000x128, .f32⟩
  | 28 => ⟨S800000x128, .f32⟩
  | 29 => ⟨S1x128, .f32⟩
  | 30 => ⟨S800000x128, .f32⟩
  | 31 => ⟨S800000x128, .f32⟩
  | 32 => ⟨S_, .f32⟩
  | 33 => ⟨S_, .f32⟩
  | 34 => ⟨S800000x128, .f32⟩
  | 35 => ⟨S800000x128, .i1⟩
  | 36 => ⟨S_, .f32⟩
  | 37 => ⟨S800000x128, .f32⟩
  | 38 => ⟨S800000x128, .f32⟩
  | 39 => ⟨S800000x128, .f32⟩
  | 40 => ⟨S800000x128, .f32⟩
  | 41 => ⟨S1x128, .f32⟩
  | 42 => ⟨S800000x128, .f32⟩
  | 43 => ⟨S800000x128, .f32⟩
  | 44 => ⟨S_, .f32⟩
  | 45 => ⟨S800000x1, .f32⟩
  | 46 => ⟨S_, .f32⟩
  | 47 => ⟨S50000x1, .f32⟩
  | 48 => ⟨S800000x1, .i32⟩
  | 49 => ⟨S50000x1, .f32⟩
  | 50 => ⟨S_, .f32⟩
  | 51 => ⟨S50000x1, .f32⟩
  | 52 => ⟨S50000x1, .f32⟩
  | 53 => ⟨S_, .f32⟩
  | 54 => ⟨S50000x128, .f32⟩
  | 55 => ⟨S800000x1, .i32⟩
  | 56 => ⟨S50000x128, .f32⟩
  | 57 => ⟨S50000x128, .f32⟩
  | 58 => ⟨S50000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x128, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S50000x128, .f32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S50000x128, .i1⟩
  | 107 => ⟨S_, .f32⟩
  | 108 => ⟨S50000x128, .f32⟩
  | 109 => ⟨S50000x128, .f32⟩
  | 110 => ⟨S_, .f32⟩
  | 111 => ⟨S50000x128, .f32⟩
  | 112 => ⟨S50000x128, .i1⟩
  | 113 => ⟨S_, .f32⟩
  | 114 => ⟨S50000x128, .f32⟩
  | 115 => ⟨S50000x128, .f32⟩
  | 116 => ⟨S_, .f32⟩
  | 117 => ⟨S50000x128, .f32⟩
  | 118 => ⟨S50000x128, .i1⟩
  | 119 => ⟨S_, .f32⟩
  | 120 => ⟨S50000x128, .f32⟩
  | 121 => ⟨S50000x128, .f32⟩
  | 122 => ⟨S50000x128, .i1⟩
  | 123 => ⟨S_, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .i1⟩
  | 1 => ⟨S_, .f32⟩
  | 2 => ⟨S50000x128, .f32⟩
  | 3 => ⟨S50000x128, .f32⟩
  | 4 => ⟨S_, .f32⟩
  | 5 => ⟨S50000x128, .f32⟩
  | 6 => ⟨S50000x128, .i1⟩
  | 7 => ⟨S_, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S50000x128, .i1⟩
  | 15 => ⟨S_, .f32⟩
  | 16 => ⟨S50000x128, .f32⟩
  | 17 => ⟨S50000x128, .f32⟩
  | 18 => ⟨S_, .f32⟩
  | 19 => ⟨S50000x128, .f32⟩
  | 20 => ⟨S50000x128, .i1⟩
  | 21 => ⟨S_, .f32⟩
  | 22 => ⟨S50000x128, .f32⟩
  | 23 => ⟨S50000x128, .f32⟩
  | 24 => ⟨S_, .f32⟩
  | 25 => ⟨S50000x128, .f32⟩
  | 26 => ⟨S50000x128, .i1⟩
  | 27 => ⟨S_, .f32⟩
  | 28 => ⟨S50000x128, .f32⟩
  | 29 => ⟨S50000x128, .f32⟩
  | 30 => ⟨S50000x128, .i1⟩
  | 31 => ⟨S_, .f32⟩
  | 32 => ⟨S50000x128, .f32⟩
  | 33 => ⟨S50000x128, .f32⟩
  | 34 => ⟨S_, .f32⟩
  | 35 => ⟨S50000x128, .f32⟩
  | 36 => ⟨S50000x128, .i1⟩
  | 37 => ⟨S_, .f32⟩
  | 38 => ⟨S50000x128, .f32⟩
  | 39 => ⟨S50000x128, .f32⟩
  | 40 => ⟨S_, .f32⟩
  | 41 => ⟨S50000x128, .f32⟩
  | 42 => ⟨S50000x128, .i1⟩
  | 43 => ⟨S_, .f32⟩
  | 44 => ⟨S50000x128, .f32⟩
  | 45 => ⟨S50000x128, .f32⟩
  | 46 => ⟨S_, .i32⟩
  | 47 => ⟨S50000, .i32⟩
  | 48 => ⟨S50000, .i1⟩
  | 49 => ⟨S_, .i32⟩
  | 50 => ⟨S50000, .i32⟩
  | 51 => ⟨S50000, .i32⟩
  | 52 => ⟨S50000, .i32⟩
  | 53 => ⟨S50000x1, .i32⟩
  | 54 => ⟨S50000x64, .f32⟩
  | 55 => ⟨S50000x705, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S_, .f32⟩
  | 62 => ⟨S50000x128, .f32⟩
  | 63 => ⟨S50000x128, .i1⟩
  | 64 => ⟨S_, .f32⟩
  | 65 => ⟨S50000x128, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call1_cst : Ref sig .tc := ⟨.hbm, 68, rfl⟩
abbrev main_call1_v0 : Ref sig .tc := ⟨.hbm, 69, rfl⟩
abbrev main_v40 : Ref sig .tc := ⟨.hbm, 70, rfl⟩
abbrev main_cst_6 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_7 : Ref sig .tc := ⟨.hbm, 75, rfl⟩
abbrev main_v44 : Ref sig .tc := ⟨.hbm, 76, rfl⟩
abbrev main_v45 : Ref sig .tc := ⟨.hbm, 77, rfl⟩
abbrev main_c_8 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_9 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call2_v0 : Ref sig .tc := ⟨.hbm, 106, rfl⟩
abbrev main_call2_cst : Ref sig .tc := ⟨.hbm, 107, rfl⟩
abbrev main_call2_call0_v0 : Ref sig .tc := ⟨.hbm, 108, rfl⟩
abbrev main_call2_v1 : Ref sig .tc := ⟨.hbm, 109, rfl⟩
abbrev main_call2_cst_0 : Ref sig .tc := ⟨.hbm, 110, rfl⟩
abbrev main_call2_v2 : Ref sig .tc := ⟨.hbm, 111, rfl⟩
abbrev main_call2_v3 : Ref sig .tc := ⟨.hbm, 112, rfl⟩
abbrev main_call2_cst_1 : Ref sig .tc := ⟨.hbm, 113, rfl⟩
abbrev main_call2_call1_v0 : Ref sig .tc := ⟨.hbm, 114, rfl⟩
abbrev main_call2_v4 : Ref sig .tc := ⟨.hbm, 115, rfl⟩
abbrev main_call2_cst_2 : Ref sig .tc := ⟨.hbm, 116, rfl⟩
abbrev main_call2_v5 : Ref sig .tc := ⟨.hbm, 117, rfl⟩
abbrev main_call2_v6 : Ref sig .tc := ⟨.hbm, 118, rfl⟩
abbrev main_call2_cst_3 : Ref sig .tc := ⟨.hbm, 119, rfl⟩
abbrev main_call2_call2_v0 : Ref sig .tc := ⟨.hbm, 120, rfl⟩
abbrev main_v71 : Ref sig .tc := ⟨.hbm, 121, rfl⟩
abbrev main_call3_v0 : Ref sig .tc := ⟨.hbm, 122, rfl⟩
abbrev main_call3_cst : Ref sig .tc := ⟨.hbm, 123, rfl⟩
abbrev main_call3_call0_v0 : Ref sig .tc := ⟨.hbm, 124, rfl⟩
abbrev main_call3_v1 : Ref sig .tc := ⟨.hbm, 125, rfl⟩
abbrev main_call3_cst_0 : Ref sig .tc := ⟨.hbm, 126, rfl⟩
abbrev main_call3_v2 : Ref sig .tc := ⟨.hbm, 127, rfl⟩
abbrev main_call3_v3 : Ref sig .tc := ⟨.hbm, 128, rfl⟩
abbrev main_call3_cst_1 : Ref sig .tc := ⟨.hbm, 129, rfl⟩
abbrev main_call3_call1_v0 : Ref sig .tc := ⟨.hbm, 130, rfl⟩
abbrev main_call3_v4 : Ref sig .tc := ⟨.hbm, 131, rfl⟩
abbrev main_call3_cst_2 : Ref sig .tc := ⟨.hbm, 132, rfl⟩
abbrev main_call3_v5 : Ref sig .tc := ⟨.hbm, 133, rfl⟩
abbrev main_call3_v6 : Ref sig .tc := ⟨.hbm, 134, rfl⟩
abbrev main_call3_cst_3 : Ref sig .tc := ⟨.hbm, 135, rfl⟩
abbrev main_call3_call2_v0 : Ref sig .tc := ⟨.hbm, 136, rfl⟩
abbrev main_v72 : Ref sig .tc := ⟨.hbm, 137, rfl⟩
abbrev main_cst_11 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_call4_v0 : Ref sig .tc := ⟨.hbm, 142, rfl⟩
abbrev main_call4_cst : Ref sig .tc := ⟨.hbm, 143, rfl⟩
abbrev main_call4_call0_v0 : Ref sig .tc := ⟨.hbm, 144, rfl⟩
abbrev main_call4_v1 : Ref sig .tc := ⟨.hbm, 145, rfl⟩
abbrev main_call4_cst_0 : Ref sig .tc := ⟨.hbm, 146, rfl⟩
abbrev main_call4_v2 : Ref sig .tc := ⟨.hbm, 147, rfl⟩
abbrev main_call4_v3 : Ref sig .tc := ⟨.hbm, 148, rfl⟩
abbrev main_call4_cst_1 : Ref sig .tc := ⟨.hbm, 149, rfl⟩
abbrev main_call4_call1_v0 : Ref sig .tc := ⟨.hbm, 150, rfl⟩
abbrev main_call4_v4 : Ref sig .tc := ⟨.hbm, 151, rfl⟩
abbrev main_call4_cst_2 : Ref sig .tc := ⟨.hbm, 152, rfl⟩
abbrev main_call4_v5 : Ref sig .tc := ⟨.hbm, 153, rfl⟩
abbrev main_call4_v6 : Ref sig .tc := ⟨.hbm, 154, rfl⟩
abbrev main_call4_cst_3 : Ref sig .tc := ⟨.hbm, 155, rfl⟩
abbrev main_call4_call2_v0 : Ref sig .tc := ⟨.hbm, 156, rfl⟩
abbrev main_v76 : Ref sig .tc := ⟨.hbm, 157, rfl⟩
abbrev main_call5_v0 : Ref sig .tc := ⟨.hbm, 158, rfl⟩
abbrev main_call5_cst : Ref sig .tc := ⟨.hbm, 159, rfl⟩
abbrev main_call5_call0_v0 : Ref sig .tc := ⟨.hbm, 160, rfl⟩
abbrev main_call5_v1 : Ref sig .tc := ⟨.hbm, 161, rfl⟩
abbrev main_call5_cst_0 : Ref sig .tc := ⟨.hbm, 162, rfl⟩
abbrev main_call5_v2 : Ref sig .tc := ⟨.hbm, 163, rfl⟩
abbrev main_call5_v3 : Ref sig .tc := ⟨.hbm, 164, rfl⟩
abbrev main_call5_cst_1 : Ref sig .tc := ⟨.hbm, 165, rfl⟩
abbrev main_call5_call1_v0 : Ref sig .tc := ⟨.hbm, 166, rfl⟩
abbrev main_call5_v4 : Ref sig .tc := ⟨.hbm, 167, rfl⟩
abbrev main_call5_cst_2 : Ref sig .tc := ⟨.hbm, 168, rfl⟩
abbrev main_call5_v5 : Ref sig .tc := ⟨.hbm, 169, rfl⟩
abbrev main_call5_v6 : Ref sig .tc := ⟨.hbm, 170, rfl⟩
abbrev main_call5_cst_3 : Ref sig .tc := ⟨.hbm, 171, rfl⟩
abbrev main_call5_call2_v0 : Ref sig .tc := ⟨.hbm, 172, rfl⟩
abbrev main_v77 : Ref sig .tc := ⟨.hbm, 173, rfl⟩
abbrev main_c_12 : Ref sig .tc := ⟨.hbm, 174, rfl⟩
abbrev main_v78 : Ref sig .tc := ⟨.hbm, 175, rfl⟩
abbrev main_v79 : Ref sig .tc := ⟨.hbm, 176, rfl⟩
abbrev main_c_13 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_cst_14 : Ref sig .tc := ⟨.hbm, 188, rfl⟩
abbrev main_call6_cst : Ref sig .tc := ⟨.hbm, 189, rfl⟩
abbrev main_call6_v0 : Ref sig .tc := ⟨.hbm, 190, rfl⟩
abbrev main_call6_v1 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x1_S50000x128_S50000x128_S50000x128_S50000x128_S50000x64_S50000x705_d1 : Shape.Concatenates [S50000x128, S50000x1, S50000x128, S50000x128, S50000x128, S50000x128, S50000x64] S50000x705 1
  bcast_S1x128_S50000x128_0_1 : S1x128.BroadcastsInDim S50000x128 (![0, 1] : Fin 2 → Fin S50000x128.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x1_S800000x1_S800000x1_1_0_0_1_wf : ScatterDims.WF S50000x1 S800000x1 S800000x1 [1] [0] [0] 1
  scatter_S50000x128_S800000x1_S800000x128_1_0_0_1_wf : ScatterDims.WF S50000x128 S800000x1 S800000x128 [1] [0] [0] 1
  gather_S50000x128_S800000x1_S800000x128_1_0_n_n_0_1_1128_wf : GatherDims.WF S50000x128 S800000x1 S800000x128 [1] [0] [] [0] [] 1 ![1, 128]
  gather_S8x64_S50000x1_S50000x64_1_0_n_n_0_1_164_wf : GatherDims.WF S8x64 S50000x1 S50000x64 [1] [0] [] [0] [] 1 ![1, 64]
  dot_S50000x705_S705x128_S50000x128_1_0_0_1_n_n_wf : DotDims.WF S50000x705 S705x128 S50000x128 [1] [0] [0] [1] [] []
  dot_S50000x128_S128x128_S50000x128_1_0_0_1_n_n_wf : DotDims.WF S50000x128 S128x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S8x64_S50000x1_S50000x64_1_0_n_n_0_1_164 : GatherDims S8x64 S50000x1 S50000x64 where
  offsetDims := [1]
  collapsedSliceDims := [0]
  operandBatchingDims := []
  startIndicesBatchingDims := []
  startIndexMap := [0]
  indexVectorDim := 1
  sliceSizes := ![1, 64]
  wf := gather_S8x64_S50000x1_S50000x64_1_0_n_n_0_1_164_wf
def dot_S50000x705_S705x128_S50000x128_1_0_0_1_n_n : DotDims S50000x705 S705x128 S50000x128 where
  lhsContracting := [1]
  rhsContracting := [0]
  lhsNonContracting := [0]
  rhsNonContracting := [1]
  lhsBatch := []
  rhsBatch := []
  wf := dot_S50000x705_S705x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BitsEdgeRegion.lean ====
import proofs.«425747_j24756191494619_2_alg».proof.Proof.Gen.Kernel.Launch
import proofs.«425747_j24756191494619_2_alg».proof.Proof.Gen.Kernel.Skeleton
import proofs.«425747_j24756191494619_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.EdgeMlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rRows64 : Rect S5000x64 := Rect.unit (s := S5000x64) ![0, 0] S5000x64.size inb_S5000x64_S5000x64_0_0
abbrev rHalf : Rect S64x128 := Rect.unit (s := S64x128) ![0, 0] S64x128.size inb_S64x128_S64x128_0_0
abbrev rBias : Rect S1x128 := Rect.unit (s := S1x128) ![0, 0] S1x128.size inb_S1x128_S1x128_0_0
abbrev rSquare : Rect S128x128 := Rect.unit (s := S128x128) ![0, 0] S128x128.size inb_S128x128_S128x128_0_0
abbrev rRows128 : Rect S5000x128 := Rect.unit (s := S5000x128) ![0, 0] S5000x128.size inb_S5000x128_S5000x128_0_0

noncomputable def out (x0 x1 : Vec F S5000x64 .f32) (x2 x3 : Vec F S64x128 .f32) (x4 : Vec F S1x128 .f32) (x5 : Vec F S128x128 .f32)
    (x6 : Vec F S1x128 .f32) : Vec F S5000x128 .f32 :=
  View.canon [⟨rRows128, k0_pay1 (View.ld x0 rRows64) (View.ld x1 rRows64) (View.ld x2 rHalf) (View.ld x3 rHalf) (View.ld x4 rBias)
    (View.ld x5 rSquare) (View.ld x6 rBias)⟩]

theorem cover (p0 : Vec F S5000x128 .f32) (y : S5000x128.Idx) :
    ∃ pc ∈ ([⟨rRows128, p0⟩] : List (View.Piece (Elt F) S5000x128 .f32)), y ∈ pc.1.set :=
  View.cover_of_tiled [⟨rRows128, p0⟩] S5000x128.size (by rfl) y

set_option maxHeartbeats 1000000 in
theorem sound_kernel (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 x1 : Vec F S5000x64 .f32) (x2 x3 : Vec F S64x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out x0 x1 x2 x3 x4 x5 x6)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

noncomputable def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out (iblk V c 0 t) (iblk V c 1 t) (iblk V c 2 t) (iblk V c 3 t) (iblk V c 4 t) (iblk V c 5 t) (iblk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_out (c : Dev nD) (t : Fin cfg0.N) : (dat V c).after 7 t
    = out (iblk V c 0 t) (iblk V c 1 t) (iblk V c 2 t) (iblk V c 3 t) (iblk V c 4 t) (iblk V c 5 t) (iblk V c 6 t) := by dsimp only [dat]

theorem before_0 (c : Dev nD) (t : Fin cfg0.N) (d) : (dat V c).before 0 t d = iblk V c 0 t :=
  (dat V c).before_in_eq_fetched 0 rfl (fun _ => rfl) (fun _ _ _ => rfl) (fun _ => rfl) t d
theorem before_1 (c : Dev nD) (t : Fin cfg0.N) (d) : (dat V c).before 1 t d = iblk V c 1 t :=
  (dat V c).before_in_eq_fetched 1 rfl (fun _ => rfl) (fun _ _ _ => rfl) (fun _ => rfl) t d
theorem before_2 (c : Dev nD) (t : Fin cfg0.N) (d) : (dat V c).before 2 t d = iblk V c 2 t :=
  (dat V c).before_in_eq_fetched 2 rfl (fun _ => rfl) (fun _ _ _ => rfl) (fun _ => rfl) t d
theorem before_3 (c : Dev nD) (t : Fin cfg0.N) (d) : (dat V c).before 3 t d = iblk V c 3 t :=
  (dat V c).before_in_eq_fetched 3 rfl (fun _ => rfl) (fun _ _ _ => rfl) (fun _ => rfl) t d
theorem before_4 (c : Dev nD) (t : Fin cfg0.N) (d) : (dat V c).before 4 t d = iblk V c 4 t :=
  (dat V c).before_in_eq_fetched 4 rfl (fun _ => rfl) (fun _ _ _ => rfl) (fun _ => rfl) t d
theorem before_5 (c : Dev nD) (t : Fin cfg0.N) (d) : (dat V c).before 5 t d = iblk V c 5 t :=
  (dat V c).before_in_eq_fetched 5 rfl (fun _ => rfl) (fun _ _ _ => rfl) (fun _ => rfl) t d
theorem before_6 (c : Dev nD) (t : Fin cfg0.N) (d) : (dat V c).before 6 t d = iblk V c 6 t :=
  (dat V c).before_in_eq_fetched 6 rfl (fun _ => rfl) (fun _ _ _ => rfl) (fun _ => rfl) t d

theorem body_obligation (c : Dev nD) : BodyObligation (dat (F := F) V c) (defs₀ (F := F)) Variants.none () Set.univ := fun t => by
  rw [bigSep_W0, bigSep_W0]
  show iprop((dat V c).Φ t.castSucc ∗ (dat V c).owesAt () t.castSucc ∗ _) ⊢ wp frame _ Set.univ (bodyAt0 t) _
  unfold bodyAt0
  simp only [before_0, before_1, before_2, before_3, before_4, before_5, before_6]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  iframe H0 H1 H2 H3 H4 H5 H6
  isplitl [H7]; · iexists _; iexact H7
  iintro ⟨H0, H1, H2, H3, H4, H5, H6, H7⟩
  iframe

end Cert.Kernel.EdgeMlp

end
-- ==== Proof.BitsNodeRegion.lean ====
import proofs.«425747_j24756191494619_2_alg».proof.Proof.Gen.Kernel.Launch
import proofs.«425747_j24756191494619_2_alg».proof.Proof.Gen.Kernel.Skeleton
import proofs.«425747_j24756191494619_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NodeMlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S2000x128 := Rect.unit (s := S2000x128) ![0, 0] S2000x128.size inb_S2000x128_S2000x128_0_0
abbrev rC : Rect S2000x1 := Rect.unit (s := S2000x1) ![0, 0] S2000x1.size inb_S2000x1_S2000x1_0_0
abbrev rU : Rect S2000x64 := Rect.unit (s := S2000x64) ![0, 0] S2000x64.size inb_S2000x64_S2000x64_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rV : Rect S64x128 := Rect.unit (s := S64x128) ![0, 0] S64x128.size inb_S64x128_S64x128_0_0

noncomputable def out (x0 : Vec F S2000x128 .f32) (x1 : Vec F S2000x1 .f32) (x2 : Vec F S2000x128 .f32) (x3 : Vec F S2000x128 .f32) (x4 : Vec F S2000x128 .f32) (x5 : Vec F S2000x128 .f32) (x6 : Vec F S2000x64 .f32) (x7 : Vec F S128x128 .f32) (x8 : Vec F S1x128 .f32) (x9 : Vec F S128x128 .f32) (x10 : Vec F S128x128 .f32) (x11 : Vec F S128x128 .f32) (x12 : Vec F S128x128 .f32) (x13 : Vec F S64x128 .f32) (x14 : Vec F S1x128 .f32) (x15 : Vec F S128x128 .f32) (x16 : Vec F S1x128 .f32) : Vec F S2000x128 .f32 :=
  View.canon [⟨rX, k1_pay14 (k1_pay5 (View.ld x5 rX)) (k1_pay6 (View.ld x6 rU)) (k1_pay11 (View.ld x12 rW)) (k1_pay12 (View.ld x13 rV))
      (k1_pay13 (k1_pay1 (View.ld x0 rX)) (k1_pay2 (View.ld x2 rX)) (k1_pay3 (View.ld x3 rX)) (k1_pay4 (View.ld x4 rX))
        (k1_pay7 (View.ld x7 rW)) (k1_pay8 (View.ld x9 rW)) (k1_pay9 (View.ld x10 rW)) (k1_pay10 (View.ld x11 rW)))
      (View.ld x1 rC) (View.ld x8 rB) (View.ld x14 rB) (View.ld x15 rW) (View.ld x16 rB)⟩]

theorem cover (p0 : Vec F S2000x128 .f32) (y : S2000x128.Idx) :
    ∃ pc ∈ ([⟨rX, p0⟩] : List (View.Piece (Elt F) S2000x128 .f32)), y ∈ pc.1.set :=
  View.cover_of_tiled [⟨rX, p0⟩] S2000x128.size (by rfl) y

set_option maxHeartbeats 4000000 in
theorem sound_kernel (c : Dev nD) (E : Set ℕ) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x64 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S64x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S2000x128 .f32) (harg18 : arg18.IsWhole)
    (x0 : Vec F S2000x128 .f32) (x1 : Vec F S2000x1 .f32) (x2 : Vec F S2000x128 .f32) (x3 : Vec F S2000x128 .f32) (x4 : Vec F S2000x128 .f32) (x5 : Vec F S2000x128 .f32) (x6 : Vec F S2000x64 .f32) (x7 : Vec F S128x128 .f32) (x8 : Vec F S1x128 .f32) (x9 : Vec F S128x128 .f32) (x10 : Vec F S128x128 .f32) (x11 : Vec F S128x128 .f32) (x12 : Vec F S128x128 .f32) (x13 : Vec F S64x128 .f32) (x14 : Vec F S1x128 .f32) (x15 : Vec F S128x128 .f32) (x16 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out x0 x1 x2 x3 x4 x5 x6 x7 x8 x9 x10 x11 x12 x13 x14 x15 x16)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__node_mlp_kernel_eq_skeleton]; unfold cc1__node_mlp_kernel_skel
  simp only [k1_part2_eq_skeleton]; unfold k1_part2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover _)

noncomputable def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t)
    | ⟨_ + 18, h⟩ => absurd h (Nat.not_lt.2 (Nat.le_add_left _ _))
  Φ _ := Pipeline.ΦA spec1 c
  q _ := fullShare
  owed _ := 0

theorem A_eq (c : Dev nD) (w : Fin cfg1.W) : (dat V c).A w = V c (Pipeline.arrRef spec1 w) := by
  dsimp only [dat]

theorem after_out (c : Dev nD) (t : Fin cfg1.N) : (dat V c).after 17 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) := by dsimp only [dat]

theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d
theorem before_2 (c : Dev nD) (t : Fin cfg1.N) (d) : (dat V c).before 2 t d = iblk V c 2 t :=
  (dat V c).before_in_eq_fetched 2 rfl (fun _ => rfl) (fun _ _ _ => rfl) (fun _ => rfl) t d
theorem before_3 (c : Dev nD) (t : Fin cfg1.N) (d) : (dat V c).before 3 t d = iblk V c 3 t :=
  (dat V c).before_in_eq_fetched 3 rfl (fun _ => rfl) (fun _ _ _ => rfl) (fun _ => rfl) t d
theorem before_4 (c : Dev nD) (t : Fin cfg1.N) (d) : (dat V c).before 4 t d = iblk V c 4 t :=
  (dat V c).before_in_eq_fetched 4 rfl (fun _ => rfl) (fun _ _ _ => rfl) (fun _ => rfl) t d
theorem before_5 (c : Dev nD) (t : Fin cfg1.N) (d) : (dat V c).before 5 t d = iblk V c 5 t :=
  (dat V c).before_in_eq_fetched 5 rfl (fun _ => rfl) (fun _ _ _ => rfl) (fun _ => rfl) t d
theorem before_6 (c : Dev nD) (t : Fin cfg1.N) (d) : (dat V c).before 6 t d = iblk V c 6 t :=
  (dat V c).before_in_eq_fetched 6 rfl (fun _ => rfl) (fun _ _ _ => rfl) (fun _ => rfl) t d
theorem before_7 (c : Dev nD) (t : Fin cfg1.N) (d) : (dat V c).before 7 t d = iblk V c 7 t :=
  (dat V c).before_in_eq_fetched 7 rfl (fun _ => rfl) (fun _ _ _ => rfl) (fun _ => rfl) t d
theorem before_8 (c : Dev nD) (t : Fin cfg1.N) (d) : (dat V c).before 8 t d = iblk V c 8 t :=
  (dat V c).before_in_eq_fetched 8 rfl (fun _ => rfl) (fun _ _ _ => rfl) (fun _ => rfl) t d
theorem before_9 (c : Dev nD) (t : Fin cfg1.N) (d) : (dat V c).before 9 t d = iblk V c 9 t :=
  (dat V c).before_in_eq_fetched 9 rfl (fun _ => rfl) (fun _ _ _ => rfl) (fun _ => rfl) t d
theorem before_10 (c : Dev nD) (t : Fin cfg1.N) (d) : (dat V c).before 10 t d = iblk V c 10 t :=
  (dat V c).before_in_eq_fetched 10 rfl (fun _ => rfl) (fun _ _ _ => rfl) (fun _ => rfl) t d
theorem before_11 (c : Dev nD) (t : Fin cfg1.N) (d) : (dat V c).before 11 t d = iblk V c 11 t :=
  (dat V c).before_in_eq_fetched 11 rfl (fun _ => rfl) (fun _ _ _ => rfl) (fun _ => rfl) t d
theorem before_12 (c : Dev nD) (t : Fin cfg1.N) (d) : (dat V c).before 12 t d = iblk V c 12 t :=
  (dat V c).before_in_eq_fetched 12 rfl (fun _ => rfl) (fun _ _ _ => rfl) (fun _ => rfl) t d
theorem before_13 (c : Dev nD) (t : Fin cfg1.N) (d) : (dat V c).before 13 t d = iblk V c 13 t :=
  (dat V c).before_in_eq_fetched 13 rfl (fun _ => rfl) (fun _ _ _ => rfl) (fun _ => rfl) t d
theorem before_14 (c : Dev nD) (t : Fin cfg1.N) (d) : (dat V c).before 14 t d = iblk V c 14 t :=
  (dat V c).before_in_eq_fetched 14 rfl (fun _ => rfl) (fun _ _ _ => rfl) (fun _ => rfl) t d
theorem before_15 (c : Dev nD) (t : Fin cfg1.N) (d) : (dat V c).before 15 t d = iblk V c 15 t :=
  (dat V c).before_in_eq_fetched 15 rfl (fun _ => rfl) (fun _ _ _ => rfl) (fun _ => rfl) t d
theorem before_16 (c : Dev nD) (t : Fin cfg1.N) (d) : (dat V c).before 16 t d = iblk V c 16 t :=
  (dat V c).before_in_eq_fetched 16 rfl (fun _ => rfl) (fun _ _ _ => rfl) (fun _ => rfl) t d

set_option maxHeartbeats 1000000 in
theorem body_obligation (c : Dev nD) : BodyObligation (dat (F := F) V c) (defs₀ (F := F)) Variants.none () Set.univ := fun t => by
  rw [bigSep_W1, bigSep_W1]
  show iprop((dat V c).Φ t.castSucc ∗ (dat V c).owesAt () t.castSucc ∗ _) ⊢ wp frame _ Set.univ (bodyAt1 t) _
  unfold bodyAt1
  simp only [before_0, before_1, before_2, before_3, before_4, before_5, before_6, before_7, before_8, before_9, before_10, before_11, before_12, before_13, before_14, before_15, before_16]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid1.coords t) _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) _)
  iframe H0 H1 H2 H3 H4 H5 H6 H7 H8 H9 H10 H11 H12 H13 H14 H15 H16
  isplitl [H17]; · iexists _; iexact H17
  iintro ⟨H0, H1, H2, H3, H4, H5, H6, H7, H8, H9, H10, H11, H12, H13, H14, H15, H16, H17⟩
  iframe

end Cert.Kernel.NodeMlp

end
-- ==== Proof.BitsLaunch.lean ====
import proofs.«425747_j24756191494619_2_alg».proof.Proof.Gen.Kernel.Regions
import proofs.«425747_j24756191494619_2_alg».proof.Proof.BitsEdgeRegion
import proofs.«425747_j24756191494619_2_alg».proof.Proof.BitsNodeRegion

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VE : (c : Dev nD) → (b : Ref sig .tc) → Buf (Elt F) ((c : Thread nD τ).loc b) := fun c b => V3 m c b

noncomputable def msgOut (c : Dev nD) : Buf (Elt F) ((c : Thread nD τ).loc main_v9) := (EdgeMlp.dat (VE m) c).arrAt 7 cfg0.N

noncomputable def outsE : Outs (F := F) := fun _ r c => Function.update (V3 m c) (Proc.devRef .tc main_v9) (msgOut m c) (Proc.devRef .tc r)

abbrev VN : (c : Dev nD) → (b : Ref sig .tc) → Buf (Elt F) ((c : Thread nD τ).loc b) := fun c b => V16 m (outsE m) c b

noncomputable def nodeOut (c : Dev nD) : Buf (Elt F) ((c : Thread nD τ).loc main_v69) := (NodeMlp.dat (VN m) c).arrAt 17 cfg1.N

noncomputable def outs : Outs (F := F) := fun J r c =>
  if J = 17 then Function.update (V16 m (outsE m) c) (Proc.devRef .tc main_v69) (nodeOut m c) (Proc.devRef .tc r) else outsE m J r c

theorem outs_4 (c : Dev nD) : outs m 4 main_v9 c = msgOut m c := by
  unfold outs outsE; rw [if_neg (by decide)]; exact Function.update_self ..

theorem outs_17 (c : Dev nD) : outs m 17 main_v69 c = nodeOut m c := by
  unfold outs; rw [if_pos rfl]; exact Function.update_self ..

theorem V4_outs (c : Dev nD) : V4 m (outs m) c = V4 m (outsE m) c := by
  show Function.update (V3 m c) _ (outs m 4 main_v9 c) = Function.update (V3 m c) _ (outsE m 4 main_v9 c)
  rw [outs_4]; unfold outsE; rw [Function.update_self]

theorem V16_outs (c : Dev nD) : V16 m (outs m) c = V16 m (outsE m) c := by
  show StableHlo.after hostOps1_11 (StableHlo.after hostOps1_10 (StableHlo.after hostOps1_9 (StableHlo.after hostOps1_8 (StableHlo.after hostOps1_7
    (StableHlo.after hostOps1_6 (StableHlo.after hostOps1_5 (StableHlo.after hostOps1_4 (StableHlo.after hostOps1_3 (StableHlo.after hostOps1_2
    (StableHlo.after hostOps1_1 (StableHlo.after hostOps1 (V4 m (outs m) c)))))))))))) = _
  rw [V4_outs]

theorem V4_msg (c : Dev nD) : V4 m (outs m) c (Proc.devRef .tc main_v9) = msgOut m c := by
  show Function.update (V3 m c) _ (outs m 4 main_v9 c) _ = _
  rw [Function.update_self, outs_4]

theorem V17_out (c : Dev nD) : V17 m (outs m) c (Proc.devRef .tc main_v69) = nodeOut m c := by
  show Function.update (V16 m (outs m) c) _ (outs m 17 main_v69 c) _ = _
  rw [Function.update_self, outs_17]

noncomputable def pdats : (p : Fin 2) → (c : Dev nD) → Dat τ (Elt F) Unit ℕ (UR sig nD τ) ℕ (cfgs p) c
  | ⟨0, _⟩ => fun c => EdgeMlp.dat (VE m) c
  | ⟨1, _⟩ => fun c => NodeMlp.dat (VN m) c

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)
abbrev E : Fin 3 → Dev nD → sProp 𝕄 := fun _ c => Rr c
abbrev Tₙ (c : Dev nD) : sProp 𝕄 := iprop(StableHlo.held (c : Thread nD τ) (Pipeline.ucRefs τ sig) (V17 m (outs m) c) ∗ ∃ r, prngReg c r)

abbrev VE' : (c : Dev nD) → (b : Ref sig .tc) → Buf (Elt F) ((c : Thread nD τ).loc b) := fun c b => V4 m (outs m) c b
abbrev VN₀ : (c : Dev nD) → (b : Ref sig .tc) → Buf (Elt F) ((c : Thread nD τ).loc b) := fun c b => V16 m (outs m) c b
abbrev VN' : (c : Dev nD) → (b : Ref sig .tc) → Buf (Elt F) ((c : Thread nD τ).loc b) := fun c b => V17 m (outs m) c b

theorem VN₀_eq (c : Dev nD) : VN₀ m c = VN m c := by
  funext b; show V16 m (outs m) c _ = V16 m (outsE m) c _; rw [V16_outs]

theorem win0_in : ∀ w : Fin 8, w ≠ 7 → (cfg0.win w).isOut = false := by decide
theorem arr0_ne : ∀ w : Fin 8, w ≠ 7 → Pipeline.arrRef spec0 w ∉ ([main_v9] : List (Ref sig .tc)) := by decide

theorem hF0 (c : Dev nD) (w : Fin cfg0.W) : (pdats m 0 c).arrAt w cfg0.N = VE' m c (Pipeline.arrRef spec0 w) := by
  by_cases hw : w = 7
  · subst hw; exact (V4_msg m c).symm
  · exact ((pdats m 0 c).arrAt_in w (win0_in w hw) _).trans
      ((EdgeMlp.A_eq _ c w).trans (V4_of m (outs m) c (Pipeline.arrRef spec0 w) (arr0_ne w hw)).symm)

theorem hrest0 (c : Dev nD) : ∀ b, b ∉ Finset.univ.image (Pipeline.arrRef spec0) → VE' m c b = VE m c b := fun b hb =>
  V4_of m (outs m) c b (fun h => hb (Finset.mem_image.mpr ⟨7, Finset.mem_univ _, (List.mem_singleton.mp h).symm⟩))

theorem kept1 (c : Dev nD) (r : Ref sig .tc) (hr : r ∉ ([main_v69] : List (Ref sig .tc))) : VN' m c r = VN m c r :=
  (V17_of m (outs m) c r hr).trans (congrFun (VN₀_eq m c) r)

theorem win1_in : ∀ w : Fin 18, w ≠ 17 → (cfg1.win w).isOut = false := by decide
theorem arr1_ne : ∀ w : Fin 18, w ≠ 17 → Pipeline.arrRef spec1 w ∉ ([main_v69] : List (Ref sig .tc)) := by decide

theorem hF1 (c : Dev nD) (w : Fin cfg1.W) : (pdats m 1 c).arrAt w cfg1.N = VN' m c (Pipeline.arrRef spec1 w) := by
  by_cases hw : w = 17
  · subst hw; exact (V17_out m c).symm
  · exact ((pdats m 1 c).arrAt_in w (win1_in w hw) _).trans
      ((NodeMlp.A_eq _ c w).trans (kept1 m c (Pipeline.arrRef spec1 w) (arr1_ne w hw)).symm)

theorem hrest1 (c : Dev nD) : ∀ b, b ∉ Finset.univ.image (Pipeline.arrRef spec1) → VN' m c b = VN₀ m c b := fun b hb =>
  V17_of m (outs m) c b (fun h => hb (Finset.mem_image.mpr ⟨17, Finset.mem_univ _, (List.mem_singleton.mp h).symm⟩))

set_option backward.isDefEq.respectTransparency.types false in
noncomputable def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (EdgeMlp.body_obligation (VE m) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VE m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE m c) (VE' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
noncomputable def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (NodeMlp.body_obligation (VN m) c).loose
  hwaits := Pipeline.hwaits_of_owed_zero _ _ _ _ L lv 1 fun _ _ => rfl
  pre c := iprop(StableHlo.held (c : Thread nD τ) (Pipeline.ucRefs τ sig) (V16 m (outs m) c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VN₀ m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VN₀ m c) fun w => (congrFun (VN₀_eq m c) _).symm
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VN₀ m c) (VN' m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m))
    (fun c Q => by
      rewrite [main_chain c, Seg.run_eq_chain,
        show (segs m (outs m) 𝒱₀ L lv (E (F := F)) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tₙ m)
    (hch := fun c => ⟨.rfl, .rfl, .rfl, .rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V17 m (outs m) c) s')
      isplitl [Hh] <;> iassumption)
    (hQ := fun _ h => h)

theorem run_result : θ_run defs (onTc (τ := τ) (main (F := F))) ⟨m, fun _ => 0, ρ⟩ (fun r => ∀ c : Dev nD,
      r.2.mem ((c.tc : Thread nD τ).loc main_v69) = nodeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_v69 (by decide))).trans (V17_out m c),
     (h c _ (mem_uc main_arg0 (by decide))).trans (V17_main_arg0 m (outs m) c),
     (h c _ (mem_uc main_arg1 (by decide))).trans (V17_main_arg1 m (outs m) c),
     (h c _ (mem_uc main_arg2 (by decide))).trans (V17_main_arg2 m (outs m) c),
     (h c _ (mem_uc main_arg3 (by decide))).trans (V17_main_arg3 m (outs m) c),
     (h c _ (mem_uc main_arg4 (by decide))).trans (V17_main_arg4 m (outs m) c),
     (h c _ (mem_uc main_arg5 (by decide))).trans (V17_main_arg5 m (outs m) c),
     (h c _ (mem_uc main_arg6 (by decide))).trans (V17_main_arg6 m (outs m) c),
     (h c _ (mem_uc main_arg7 (by decide))).trans (V17_main_arg7 m (outs m) c),
     (h c _ (mem_uc main_arg8 (by decide))).trans (V17_main_arg8 m (outs m) c),
     (h c _ (mem_uc main_arg9 (by decide))).trans (V17_main_arg9 m (outs m) c),
     (h c _ (mem_uc main_arg10 (by decide))).trans (V17_main_arg10 m (outs m) c),
     (h c _ (mem_uc main_arg11 (by decide))).trans (V17_main_arg11 m (outs m) c),
     (h c _ (mem_uc main_arg12 (by decide))).trans (V17_main_arg12 m (outs m) c),
     (h c _ (mem_uc main_arg13 (by decide))).trans (V17_main_arg13 m (outs m) c)⟩) (run m ρ)

end Cert.Kernel.Launched

end
-- ==== Proof.EdgeRegion.lean ====
import proofs.«425747_j24756191494619_2_alg».proof.Proof.Gen.KernelIdeal.Launch
import proofs.«425747_j24756191494619_2_alg».proof.Proof.Gen.KernelIdeal.Skeleton
import proofs.«425747_j24756191494619_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.EdgeMlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rRows64 : Rect S5000x64 := Rect.unit (s := S5000x64) ![0, 0] S5000x64.size inb_S5000x64_S5000x64_0_0
abbrev rHalf : Rect S64x128 := Rect.unit (s := S64x128) ![0, 0] S64x128.size inb_S64x128_S64x128_0_0
abbrev rBias : Rect S1x128 := Rect.unit (s := S1x128) ![0, 0] S1x128.size inb_S1x128_S1x128_0_0
abbrev rSquare : Rect S128x128 := Rect.unit (s := S128x128) ![0, 0] S128x128.size inb_S128x128_S128x128_0_0
abbrev rRows128 : Rect S5000x128 := Rect.unit (s := S5000x128) ![0, 0] S5000x128.size inb_S5000x128_S5000x128_0_0

noncomputable def out (x0 x1 : Vec F S5000x64 .f32) (x2 x3 : Vec F S64x128 .f32) (x4 : Vec F S1x128 .f32) (x5 : Vec F S128x128 .f32)
    (x6 : Vec F S1x128 .f32) : Vec F S5000x128 .f32 :=
  View.canon [⟨rRows128, k0_pay1 (View.ld x0 rRows64) (View.ld x1 rRows64) (View.ld x2 rHalf) (View.ld x3 rHalf) (View.ld x4 rBias)
    (View.ld x5 rSquare) (View.ld x6 rBias)⟩]

theorem cover (p0 : Vec F S5000x128 .f32) (y : S5000x128.Idx) :
    ∃ pc ∈ ([⟨rRows128, p0⟩] : List (View.Piece (Elt F) S5000x128 .f32)), y ∈ pc.1.set :=
  View.cover_of_tiled [⟨rRows128, p0⟩] S5000x128.size (by rfl) y

set_option maxHeartbeats 1000000 in
theorem sound_kernel (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x128 .f32) (harg8 : arg8.IsWhole)
    (x0 x1 : Vec F S5000x64 .f32) (x2 x3 : Vec F S64x128 .f32) (x4 : Vec F S1x128 .f32) (x5 : Vec F S128x128 .f32) (x6 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out x0 x1 x2 x3 x4 x5 x6)) -∗ K ⟨⟩))
      ⊢ wp frame (wpE (defs₀ (F := F)) Variants.none c none) E (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

noncomputable def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out (iblk V c 0 t) (iblk V c 1 t) (iblk V c 2 t) (iblk V c 3 t) (iblk V c 4 t) (iblk V c 5 t) (iblk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after_out (c : Dev nD) (t : Fin cfg0.N) : (dat V c).after 7 t
    = out (iblk V c 0 t) (iblk V c 1 t) (iblk V c 2 t) (iblk V c 3 t) (iblk V c 4 t) (iblk V c 5 t) (iblk V c 6 t) := by dsimp only [dat]

theorem before_0 (c : Dev nD) (t : Fin cfg0.N) (d) : (dat V c).before 0 t d = iblk V c 0 t :=
  (dat V c).before_in_eq_fetched 0 rfl (fun _ => rfl) (fun _ _ _ => rfl) (fun _ => rfl) t d
theorem before_1 (c : Dev nD) (t : Fin cfg0.N) (d) : (dat V c).before 1 t d = iblk V c 1 t :=
  (dat V c).before_in_eq_fetched 1 rfl (fun _ => rfl) (fun _ _ _ => rfl) (fun _ => rfl) t d
theorem before_2 (c : Dev nD) (t : Fin cfg0.N) (d) : (dat V c).before 2 t d = iblk V c 2 t :=
  (dat V c).before_in_eq_fetched 2 rfl (fun _ => rfl) (fun _ _ _ => rfl) (fun _ => rfl) t d
theorem before_3 (c : Dev nD) (t : Fin cfg0.N) (d) : (dat V c).before 3 t d = iblk V c 3 t :=
  (dat V c).before_in_eq_fetched 3 rfl (fun _ => rfl) (fun _ _ _ => rfl) (fun _ => rfl) t d
theorem before_4 (c : Dev nD) (t : Fin cfg0.N) (d) : (dat V c).before 4 t d = iblk V c 4 t :=
  (dat V c).before_in_eq_fetched 4 rfl (fun _ => rfl) (fun _ _ _ => rfl) (fun _ => rfl) t d
theorem before_5 (c : Dev nD) (t : Fin cfg0.N) (d) : (dat V c).before 5 t d = iblk V c 5 t :=
  (dat V c).before_in_eq_fetched 5 rfl (fun _ => rfl) (fun _ _ _ => rfl) (fun _ => rfl) t d
theorem before_6 (c : Dev nD) (t : Fin cfg0.N) (d) : (dat V c).before 6 t d = iblk V c 6 t :=
  (dat V c).before_in_eq_fetched 6 rfl (fun _ => rfl) (fun _ _ _ => rfl) (fun _ => rfl) t d

theorem body_obligation (c : Dev nD) : BodyObligation (dat (F := F) V c) (defs₀ (F := F)) Variants.none () Set.univ := fun t => by
  rw [bigSep_W0, bigSep_W0]
  show iprop((dat V c).Φ t.castSucc ∗ (dat V c).owesAt () t.castSucc ∗ _) ⊢ wp frame _ Set.univ (bodyAt0 t) _
  unfold bodyAt0
  simp only [before_0, before_1, before_2, before_3, before_4, before_5, before_6]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  iframe H0 H1 H2 H3 H4 H5 H6
  isplitl [H7]; · iexists _; iexact H7
  iintro ⟨H0, H1, H2, H3, H4, H5, H6, H7⟩
  iframe

end Cert.KernelIdeal.EdgeMlp

end
-- ==== Proof.NodeRegion.lean ====
import proofs.«425747_j24756191494619_2_alg».proof.Proof.Gen.KernelIdeal.Launch
import proofs.«425747_j24756191494619_2_alg».proof.Proof.Gen.KernelIdeal.Skeleton
import proofs.«425747_j24756191494619_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NodeMlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S2000x128 := Rect.unit (s := S2000x128) ![0, 0] S2000x128.size inb_S2000x128_S2000x128_0_0
abbrev rC : Rect S2000x1 := Rect.unit (s := S2000x1) ![0, 0] S2000x1.size inb_S2000x1_S2000x1_0_0
abbrev rU : Rect S2000x64 := Rect.unit (s := S2000x64) ![0, 0] S2000x64.size inb_S2000x64_S2000x64_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rV : Rect S64x128 := Rect.unit (s := S64x128) ![0, 0] S64x128.size inb_S64x128_S64x128_0_0

noncomputable def out (x0 : Vec F S2000x128 .f32) (x1 : Vec F S2000x1 .f32) (x2 : Vec F S2000x128 .f32) (x3 : Vec F S2000x128 .f32) (x4 : Vec F S2000x128 .f32) (x5 : Vec F S2000x128 .f32) (x6 : Vec F S2000x64 .f32) (x7 : Vec F S128x128 .f32) (x8 : Vec F S1x128 .f32) (x9 : Vec F S128x128 .f32) (x10 : Vec F S128x128 .f32) (x11 : Vec F S128x128 .f32) (x12 : Vec F S128x128 .f32) (x13 : Vec F S64x128 .f32) (x14 : Vec F S1x128 .f32) (x15 : Vec F S128x128 .f32) (x16 : Vec F S1x128 .f32) : Vec F S2000x128 .f32 :=
  View.canon [⟨rX, k1_pay14 (k1_pay5 (View.ld x5 rX)) (k1_pay6 (View.ld x6 rU)) (k1_pay11 (View.ld x12 rW)) (k1_pay12 (View.ld x13 rV))
      (k1_pay13 (k1_pay1 (View.ld x0 rX)) (k1_pay2 (View.ld x2 rX)) (k1_pay3 (View.ld x3 rX)) (k1_pay4 (View.ld x4 rX))
        (k1_pay7 (View.ld x7 rW)) (k1_pay8 (View.ld x9 rW)) (k1_pay9 (View.ld x10 rW)) (k1_pay10 (View.ld x11 rW)))
      (View.ld x1 rC) (View.ld x8 rB) (View.ld x14 rB) (View.ld x15 rW) (View.ld x16 rB)⟩]

theorem cover (p0 : Vec F S2000x128 .f32) (y : S2000x128.Idx) :
    ∃ pc ∈ ([⟨rX, p0⟩] : List (View.Piece (Elt F) S2000x128 .f32)), y ∈ pc.1.set :=
  View.cover_of_tiled [⟨rX, p0⟩] S2000x128.size (by rfl) y

set_option maxHeartbeats 4000000 in
theorem sound_kernel (c : Dev nD) (E : Set ℕ) (i : grid1.Coords) (arg1 : Memref sig .tc .vmem S2000x128 .f32) (harg1 : arg1.IsWhole) (arg2 : Memref sig .tc .vmem S2000x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x64 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S64x128 .f32) (harg14 : arg14.IsWhole) (arg15 : Memref sig .tc .vmem S1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S2000x128 .f32) (harg18 : arg18.IsWhole)
    (x0 : Vec F S2000x128 .f32) (x1 : Vec F S2000x1 .f32) (x2 : Vec F S2000x128 .f32) (x3 : Vec F S2000x128 .f32) (x4 : Vec F S2000x128 .f32) (x5 : Vec F S2000x128 .f32) (x6 : Vec F S2000x64 .f32) (x7 : Vec F S128x128 .f32) (x8 : Vec F S1x128 .f32) (x9 : Vec F S128x128 .f32) (x10 : Vec F S128x128 .f32) (x11 : Vec F S128x128 .f32) (x12 : Vec F S128x128 .f32) (x13 : Vec F S64x128 .f32) (x14 : Vec F S1x128 .f32) (x15 : Vec F S128x128 .f32) (x16 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out x0 x1 x2 x3 x4 x5 x6 x7 x8 x9 x10 x11 x12 x13 x14 x15 x16)) -∗ K ⟨⟩))
      ⊢ wp frame (wpE (defs₀ (F := F)) Variants.none c none) E (cc1__node_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__node_mlp_kernel_eq_skeleton]; unfold cc1__node_mlp_kernel_skel
  simp only [k1_part2_eq_skeleton]; unfold k1_part2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover _)

noncomputable def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t)
    | ⟨_ + 18, h⟩ => absurd h (Nat.not_lt.2 (Nat.le_add_left _ _))
  Φ _ := Pipeline.ΦA spec1 c
  q _ := fullShare
  owed _ := 0

theorem A_eq (c : Dev nD) (w : Fin cfg1.W) : (dat V c).A w = V c (Pipeline.arrRef spec1 w) := by
  dsimp only [dat]

theorem after_out (c : Dev nD) (t : Fin cfg1.N) : (dat V c).after 17 t = out (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) := by dsimp only [dat]

theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d
theorem before_2 (c : Dev nD) (t : Fin cfg1.N) (d) : (dat V c).before 2 t d = iblk V c 2 t :=
  (dat V c).before_in_eq_fetched 2 rfl (fun _ => rfl) (fun _ _ _ => rfl) (fun _ => rfl) t d
theorem before_3 (c : Dev nD) (t : Fin cfg1.N) (d) : (dat V c).before 3 t d = iblk V c 3 t :=
  (dat V c).before_in_eq_fetched 3 rfl (fun _ => rfl) (fun _ _ _ => rfl) (fun _ => rfl) t d
theorem before_4 (c : Dev nD) (t : Fin cfg1.N) (d) : (dat V c).before 4 t d = iblk V c 4 t :=
  (dat V c).before_in_eq_fetched 4 rfl (fun _ => rfl) (fun _ _ _ => rfl) (fun _ => rfl) t d
theorem before_5 (c : Dev nD) (t : Fin cfg1.N) (d) : (dat V c).before 5 t d = iblk V c 5 t :=
  (dat V c).before_in_eq_fetched 5 rfl (fun _ => rfl) (fun _ _ _ => rfl) (fun _ => rfl) t d
theorem before_6 (c : Dev nD) (t : Fin cfg1.N) (d) : (dat V c).before 6 t d = iblk V c 6 t :=
  (dat V c).before_in_eq_fetched 6 rfl (fun _ => rfl) (fun _ _ _ => rfl) (fun _ => rfl) t d
theorem before_7 (c : Dev nD) (t : Fin cfg1.N) (d) : (dat V c).before 7 t d = iblk V c 7 t :=
  (dat V c).before_in_eq_fetched 7 rfl (fun _ => rfl) (fun _ _ _ => rfl) (fun _ => rfl) t d
theorem before_8 (c : Dev nD) (t : Fin cfg1.N) (d) : (dat V c).before 8 t d = iblk V c 8 t :=
  (dat V c).before_in_eq_fetched 8 rfl (fun _ => rfl) (fun _ _ _ => rfl) (fun _ => rfl) t d
theorem before_9 (c : Dev nD) (t : Fin cfg1.N) (d) : (dat V c).before 9 t d = iblk V c 9 t :=
  (dat V c).before_in_eq_fetched 9 rfl (fun _ => rfl) (fun _ _ _ => rfl) (fun _ => rfl) t d
theorem before_10 (c : Dev nD) (t : Fin cfg1.N) (d) : (dat V c).before 10 t d = iblk V c 10 t :=
  (dat V c).before_in_eq_fetched 10 rfl (fun _ => rfl) (fun _ _ _ => rfl) (fun _ => rfl) t d
theorem before_11 (c : Dev nD) (t : Fin cfg1.N) (d) : (dat V c).before 11 t d = iblk V c 11 t :=
  (dat V c).before_in_eq_fetched 11 rfl (fun _ => rfl) (fun _ _ _ => rfl) (fun _ => rfl) t d
theorem before_12 (c : Dev nD) (t : Fin cfg1.N) (d) : (dat V c).before 12 t d = iblk V c 12 t :=
  (dat V c).before_in_eq_fetched 12 rfl (fun _ => rfl) (fun _ _ _ => rfl) (fun _ => rfl) t d
theorem before_13 (c : Dev nD) (t : Fin cfg1.N) (d) : (dat V c).before 13 t d = iblk V c 13 t :=
  (dat V c).before_in_eq_fetched 13 rfl (fun _ => rfl) (fun _ _ _ => rfl) (fun _ => rfl) t d
theorem before_14 (c : Dev nD) (t : Fin cfg1.N) (d) : (dat V c).before 14 t d = iblk V c 14 t :=
  (dat V c).before_in_eq_fetched 14 rfl (fun _ => rfl) (fun _ _ _ => rfl) (fun _ => rfl) t d
theorem before_15 (c : Dev nD) (t : Fin cfg1.N) (d) : (dat V c).before 15 t d = iblk V c 15 t :=
  (dat V c).before_in_eq_fetched 15 rfl (fun _ => rfl) (fun _ _ _ => rfl) (fun _ => rfl) t d
theorem before_16 (c : Dev nD) (t : Fin cfg1.N) (d) : (dat V c).before 16 t d = iblk V c 16 t :=
  (dat V c).before_in_eq_fetched 16 rfl (fun _ => rfl) (fun _ _ _ => rfl) (fun _ => rfl) t d

set_option maxHeartbeats 1000000 in
theorem body_obligation (c : Dev nD) : BodyObligation (dat (F := F) V c) (defs₀ (F := F)) Variants.none () Set.univ := fun t => by
  rw [bigSep_W1, bigSep_W1]
  show iprop((dat V c).Φ t.castSucc ∗ (dat V c).owesAt () t.castSucc ∗ _) ⊢ wp frame _ Set.univ (bodyAt1 t) _
  unfold bodyAt1
  simp only [before_0, before_1, before_2, before_3, before_4, before_5, before_6, before_7, before_8, before_9, before_10, before_11, before_12, before_13, before_14, before_15, before_16]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid1.coords t) _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) _)
  iframe H0 H1 H2 H3 H4 H5 H6 H7 H8 H9 H10 H11 H12 H13 H14 H15 H16
  isplitl [H17]; · iexists _; iexact H17
  iintro ⟨H0, H1, H2, H3, H4, H5, H6, H7, H8, H9, H10, H11, H12, H13, H14, H15, H16, H17⟩
  iframe

end Cert.KernelIdeal.NodeMlp

end
-- ==== Proof.Launch.lean ====
import proofs.«425747_j24756191494619_2_alg».proof.Proof.Gen.KernelIdeal.Regions
import proofs.«425747_j24756191494619_2_alg».proof.Proof.EdgeRegion
import proofs.«425747_j24756191494619_2_alg».proof.Proof.NodeRegion

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VE : (c : Dev nD) → (b : Ref sig .tc) → Buf (Elt F) ((c : Thread nD τ).loc b) := fun c b => V3 m c b

noncomputable def msgOut (c : Dev nD) : Buf (Elt F) ((c : Thread nD τ).loc main_v9) := (EdgeMlp.dat (VE m) c).arrAt 7 cfg0.N

noncomputable def outsE : Outs (F := F) := fun _ r c => Function.update (V3 m c) (Proc.devRef .tc main_v9) (msgOut m c) (Proc.devRef .tc r)

abbrev VN : (c : Dev nD) → (b : Ref sig .tc) → Buf (Elt F) ((c : Thread nD τ).loc b) := fun c b => V16 m (outsE m) c b

noncomputable def nodeOut (c : Dev nD) : Buf (Elt F) ((c : Thread nD τ).loc main_v69) := (NodeMlp.dat (VN m) c).arrAt 17 cfg1.N

noncomputable def outs : Outs (F := F) := fun J r c =>
  if J = 17 then Function.update (V16 m (outsE m) c) (Proc.devRef .tc main_v69) (nodeOut m c) (Proc.devRef .tc r) else outsE m J r c

theorem outs_4 (c : Dev nD) : outs m 4 main_v9 c = msgOut m c := by
  unfold outs outsE; rw [if_neg (by decide)]; exact Function.update_self ..

theorem outs_17 (c : Dev nD) : outs m 17 main_v69 c = nodeOut m c := by
  unfold outs; rw [if_pos rfl]; exact Function.update_self ..

theorem V4_outs (c : Dev nD) : V4 m (outs m) c = V4 m (outsE m) c := by
  show Function.update (V3 m c) _ (outs m 4 main_v9 c) = Function.update (V3 m c) _ (outsE m 4 main_v9 c)
  rw [outs_4]; unfold outsE; rw [Function.update_self]

theorem V16_outs (c : Dev nD) : V16 m (outs m) c = V16 m (outsE m) c := by
  show StableHlo.after hostOps1_11 (StableHlo.after hostOps1_10 (StableHlo.after hostOps1_9 (StableHlo.after hostOps1_8 (StableHlo.after hostOps1_7
    (StableHlo.after hostOps1_6 (StableHlo.after hostOps1_5 (StableHlo.after hostOps1_4 (StableHlo.after hostOps1_3 (StableHlo.after hostOps1_2
    (StableHlo.after hostOps1_1 (StableHlo.after hostOps1 (V4 m (outs m) c)))))))))))) = _
  rw [V4_outs]

theorem V4_msg (c : Dev nD) : V4 m (outs m) c (Proc.devRef .tc main_v9) = msgOut m c := by
  show Function.update (V3 m c) _ (outs m 4 main_v9 c) _ = _
  rw [Function.update_self, outs_4]

theorem V17_out (c : Dev nD) : V17 m (outs m) c (Proc.devRef .tc main_v69) = nodeOut m c := by
  show Function.update (V16 m (outs m) c) _ (outs m 17 main_v69 c) _ = _
  rw [Function.update_self, outs_17]

noncomputable def pdats : (p : Fin 2) → (c : Dev nD) → Dat τ (Elt F) Unit ℕ (UR sig nD τ) ℕ (cfgs p) c
  | ⟨0, _⟩ => fun c => EdgeMlp.dat (VE m) c
  | ⟨1, _⟩ => fun c => NodeMlp.dat (VN m) c

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)
abbrev E : Fin 3 → Dev nD → sProp 𝕄 := fun _ c => Rr c
abbrev Tₙ (c : Dev nD) : sProp 𝕄 := iprop(StableHlo.held (c : Thread nD τ) (Pipeline.ucRefs τ sig) (V17 m (outs m) c) ∗ ∃ r, prngReg c r)

abbrev VE' : (c : Dev nD) → (b : Ref sig .tc) → Buf (Elt F) ((c : Thread nD τ).loc b) := fun c b => V4 m (outs m) c b
abbrev VN₀ : (c : Dev nD) → (b : Ref sig .tc) → Buf (Elt F) ((c : Thread nD τ).loc b) := fun c b => V16 m (outs m) c b
abbrev VN' : (c : Dev nD) → (b : Ref sig .tc) → Buf (Elt F) ((c : Thread nD τ).loc b) := fun c b => V17 m (outs m) c b

theorem VN₀_eq (c : Dev nD) : VN₀ m c = VN m c := by
  funext b; show V16 m (outs m) c _ = V16 m (outsE m) c _; rw [V16_outs]

theorem win0_in : ∀ w : Fin 8, w ≠ 7 → (cfg0.win w).isOut = false := by decide
theorem arr0_ne : ∀ w : Fin 8, w ≠ 7 → Pipeline.arrRef spec0 w ∉ ([main_v9] : List (Ref sig .tc)) := by decide

theorem hF0 (c : Dev nD) (w : Fin cfg0.W) : (pdats m 0 c).arrAt w cfg0.N = VE' m c (Pipeline.arrRef spec0 w) := by
  by_cases hw : w = 7
  · subst hw; exact (V4_msg m c).symm
  · exact ((pdats m 0 c).arrAt_in w (win0_in w hw) _).trans
      ((EdgeMlp.A_eq _ c w).trans (V4_of m (outs m) c (Pipeline.arrRef spec0 w) (arr0_ne w hw)).symm)

theorem hrest0 (c : Dev nD) : ∀ b, b ∉ Finset.univ.image (Pipeline.arrRef spec0) → VE' m c b = VE m c b := fun b hb =>
  V4_of m (outs m) c b (fun h => hb (Finset.mem_image.mpr ⟨7, Finset.mem_univ _, (List.mem_singleton.mp h).symm⟩))

theorem kept1 (c : Dev nD) (r : Ref sig .tc) (hr : r ∉ ([main_v69] : List (Ref sig .tc))) : VN' m c r = VN m c r :=
  (V17_of m (outs m) c r hr).trans (congrFun (VN₀_eq m c) r)

theorem win1_in : ∀ w : Fin 18, w ≠ 17 → (cfg1.win w).isOut = false := by decide
theorem arr1_ne : ∀ w : Fin 18, w ≠ 17 → Pipeline.arrRef spec1 w ∉ ([main_v69] : List (Ref sig .tc)) := by decide

theorem hF1 (c : Dev nD) (w : Fin cfg1.W) : (pdats m 1 c).arrAt w cfg1.N = VN' m c (Pipeline.arrRef spec1 w) := by
  by_cases hw : w = 17
  · subst hw; exact (V17_out m c).symm
  · exact ((pdats m 1 c).arrAt_in w (win1_in w hw) _).trans
      ((NodeMlp.A_eq _ c w).trans (kept1 m c (Pipeline.arrRef spec1 w) (arr1_ne w hw)).symm)

theorem hrest1 (c : Dev nD) : ∀ b, b ∉ Finset.univ.image (Pipeline.arrRef spec1) → VN' m c b = VN₀ m c b := fun b hb =>
  V17_of m (outs m) c b (fun h => hb (Finset.mem_image.mpr ⟨17, Finset.mem_univ _, (List.mem_singleton.mp h).symm⟩))

set_option backward.isDefEq.respectTransparency.types false in
noncomputable def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (EdgeMlp.body_obligation (VE m) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VE m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE m c) (VE' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
noncomputable def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (NodeMlp.body_obligation (VN m) c).loose
  hwaits := Pipeline.hwaits_of_owed_zero _ _ _ _ L lv 1 fun _ _ => rfl
  pre c := iprop(StableHlo.held (c : Thread nD τ) (Pipeline.ucRefs τ sig) (V16 m (outs m) c) ∗ Rr c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VN₀ m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VN₀ m c) fun w => (congrFun (VN₀_eq m c) _).symm
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VN₀ m c) (VN' m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m))
    (fun c Q => by
      rewrite [main_chain c, Seg.run_eq_chain,
        show (segs m (outs m) 𝒱₀ L lv (E (F := F)) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c)) (Tₙ := Tₙ m)
    (hch := fun c => ⟨.rfl, .rfl, .rfl, .rfl, .rfl, .rfl, .rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V17 m (outs m) c) s')
      isplitl [Hh] <;> iassumption)
    (hQ := fun _ h => h)

theorem run_result : θ_run defs (onTc (τ := τ) (main (F := F))) ⟨m, fun _ => 0, ρ⟩ (fun r => ∀ c : Dev nD,
      r.2.mem ((c.tc : Thread nD τ).loc main_v69) = nodeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_v69 (by decide))).trans (V17_out m c),
     (h c _ (mem_uc main_arg0 (by decide))).trans (V17_main_arg0 m (outs m) c),
     (h c _ (mem_uc main_arg1 (by decide))).trans (V17_main_arg1 m (outs m) c),
     (h c _ (mem_uc main_arg2 (by decide))).trans (V17_main_arg2 m (outs m) c),
     (h c _ (mem_uc main_arg3 (by decide))).trans (V17_main_arg3 m (outs m) c),
     (h c _ (mem_uc main_arg4 (by decide))).trans (V17_main_arg4 m (outs m) c),
     (h c _ (mem_uc main_arg5 (by decide))).trans (V17_main_arg5 m (outs m) c),
     (h c _ (mem_uc main_arg6 (by decide))).trans (V17_main_arg6 m (outs m) c),
     (h c _ (mem_uc main_arg7 (by decide))).trans (V17_main_arg7 m (outs m) c),
     (h c _ (mem_uc main_arg8 (by decide))).trans (V17_main_arg8 m (outs m) c),
     (h c _ (mem_uc main_arg9 (by decide))).trans (V17_main_arg9 m (outs m) c),
     (h c _ (mem_uc main_arg10 (by decide))).trans (V17_main_arg10 m (outs m) c),
     (h c _ (mem_uc main_arg11 (by decide))).trans (V17_main_arg11 m (outs m) c),
     (h c _ (mem_uc main_arg12 (by decide))).trans (V17_main_arg12 m (outs m) c),
     (h c _ (mem_uc main_arg13 (by decide))).trans (V17_main_arg13 m (outs m) c)⟩) (run m ρ)

end Cert.KernelIdeal.Launched

end
-- ==== Proof.RefRun.lean ====
import proofs.«425747_j24756191494619_2_alg».proof.Proof.Gen.ReferenceIdeal
import Idealize.ShloMosaic.Lib.Pipeline.Frame

noncomputable section

namespace Cert.ReferenceIdeal.Ran

open Cert.ReferenceIdeal Cert.ReferenceIdeal.Gen Idealize.ShloMosaic Idealize.ShloMosaic.TcCoe Idealize.SL.Sem Idealize.ShloMosaic.StableHlo

variable {F : FTy → Type} [FloatOps F]

noncomputable abbrev opsA0 : List (HloOp τ sig (Elt F)) :=
  [
    StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v3 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v3 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v3 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg1 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

noncomputable abbrev opsA1 : List (HloOp τ sig (Elt F)) :=
  [
    StableHlo.binary main_v10 main_arg3 main_v11 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.binary main_v11 main_arg6 main_v12 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg7 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S800000x128 ![0, 1] bcast_S1x128_S800000x128_0_1 : (⟨S1x128, .f32⟩ : BufTy).Contents (Elt F) → (⟨S800000x128, .f32⟩ : BufTy).Contents (Elt F)),
    StableHlo.binary main_v12 main_v14 main_v15 (addf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x3DCCCCCD#32),
    StableHlo.TRef.nullary main_call0.cst (constant S_ .f32 0x00000000#32),
    StableHlo.TRef.unary main_call0.cst main_call0.v0 (broadcastInDim S800000x128 ![] bcast_S_S800000x128),
    StableHlo.TRef.binary (StableHlo.TRef.of main_v15 : StableHlo.TRef sig ⟨S800000x128, .f32⟩) main_call0.v0 main_call0.v1 (cmpf .oge),
    StableHlo.TRef.unary (StableHlo.TRef.of main_cst : StableHlo.TRef sig ⟨S_, .f32⟩) main_call0.v2 id,
    StableHlo.TRef.unary main_call0.v2 main_call0.v3 (broadcastInDim S800000x128 ![] bcast_S_S800000x128),
    StableHlo.TRef.binary main_call0.v3 (StableHlo.TRef.of main_v15 : StableHlo.TRef sig ⟨S800000x128, .f32⟩) main_call0.v4 mulf,
    StableHlo.TRef.ternary main_call0.v1 (StableHlo.TRef.of main_v15 : StableHlo.TRef sig ⟨S800000x128, .f32⟩) main_call0.v4 main_call0.call0.v0 select,
    StableHlo.binary main_v16 main_arg8 main_v17 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg9 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S800000x128 ![0, 1] bcast_S1x128_S800000x128_0_1 : (⟨S1x128, .f32⟩ : BufTy).Contents (Elt F) → (⟨S800000x128, .f32⟩ : BufTy).Contents (Elt F)),
    StableHlo.binary main_v17 main_v19 main_v20 (addf : (⟨S800000x128, .f32⟩ : BufTy).Contents (Elt F) → (⟨S800000x128, .f32⟩ : BufTy).Contents (Elt F) → (⟨S800000x128, .f32⟩ : BufTy).Contents (Elt F)) ]

noncomputable abbrev opsB0 : List (HloOp τ sig (Elt F)) :=
  [
    StableHlo.nullary main_cst_1 (constant S_ .f32 0x3F800000#32),
    StableHlo.unary main_cst_1 main_v21 (broadcastInDim S800000x1 ![] bcast_S_S800000x1 : (⟨S_, .f32⟩ : BufTy).Contents (Elt F) → (⟨S800000x1, .f32⟩ : BufTy).Contents (Elt F)),
    StableHlo.nullary main_cst_2 (constant S_ .f32 0x00000000#32),
    StableHlo.unary main_cst_2 main_v22 (broadcastInDim S50000x1 ![] bcast_S_S50000x1 : (⟨S_, .f32⟩ : BufTy).Contents (Elt F) → (⟨S50000x1, .f32⟩ : BufTy).Contents (Elt F)),
    StableHlo.unary main_v1 main_v23 (broadcastInDim S800000x1 ![0] bcast_S800000_S800000x1_0 : (⟨S800000, .i32⟩ : BufTy).Contents (Elt F) → (⟨S800000x1, .i32⟩ : BufTy).Contents (Elt F)),
    StableHlo.ternary main_v22 main_v23 main_v21 main_v24 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_3 (constant S_ .f32 0x3F800000#32),
    StableHlo.unary main_cst_3 main_v25 (broadcastInDim S50000x1 ![] bcast_S_S50000x1 : (⟨S_, .f32⟩ : BufTy).Contents (Elt F) → (⟨S50000x1, .f32⟩ : BufTy).Contents (Elt F)),
    StableHlo.binary main_v24 main_v25 main_v26 (maximumf : (⟨S50000x1, .f32⟩ : BufTy).Contents (Elt F) → (⟨S50000x1, .f32⟩ : BufTy).Contents (Elt F) → (⟨S50000x1, .f32⟩ : BufTy).Contents (Elt F)),
    StableHlo.nullary main_cst_4 (constant S_ .f32 0x00000000#32),
    StableHlo.unary main_cst_4 main_v27 (broadcastInDim S50000x128 ![] bcast_S_S50000x128 : (⟨S_, .f32⟩ : BufTy).Contents (Elt F) → (⟨S50000x128, .f32⟩ : BufTy).Contents (Elt F)),
    StableHlo.unary main_v1 main_v28 (broadcastInDim S800000x1 ![0] bcast_S800000_S800000x1_0 : (⟨S800000, .i32⟩ : BufTy).Contents (Elt F) → (⟨S800000x1, .i32⟩ : BufTy).Contents (Elt F)),
    StableHlo.ternary main_v27 main_v28 main_v20 main_v29 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v26 main_v30 (broadcastInDim S50000x128 ![0, 1] bcast_S50000x1_S50000x128_0_1 : (⟨S50000x1, .f32⟩ : BufTy).Contents (Elt F) → (⟨S50000x128, .f32⟩ : BufTy).Contents (Elt F)),
    StableHlo.binary main_v29 main_v30 main_v31 (Host.divf : (⟨S50000x128, .f32⟩ : BufTy).Contents (Elt F) → (⟨S50000x128, .f32⟩ : BufTy).Contents (Elt F) → (⟨S50000x128, .f32⟩ : BufTy).Contents (Elt F)),
    StableHlo.binary main_v20 main_v20 main_v32 (mulf : (⟨S800000x128, .f32⟩ : BufTy).Contents (Elt F) → (⟨S800000x128, .f32⟩ : BufTy).Contents (Elt F) → (⟨S800000x128, .f32⟩ : BufTy).Contents (Elt F)),
    StableHlo.nullary main_cst_5 (constant S_ .f32 0x00000000#32),
    StableHlo.unary main_cst_5 main_v33 (broadcastInDim S50000x128 ![] bcast_S_S50000x128 : (⟨S_, .f32⟩ : BufTy).Contents (Elt F) → (⟨S50000x128, .f32⟩ : BufTy).Contents (Elt F)),
    StableHlo.unary main_v1 main_v34 (broadcastInDim S800000x1 ![0] bcast_S800000_S800000x1_0 : (⟨S800000, .i32⟩ : BufTy).Contents (Elt F) → (⟨S800000x1, .i32⟩ : BufTy).Contents (Elt F)),
    StableHlo.ternary main_v33 main_v34 main_v32 main_v35 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v26 main_v36 (broadcastInDim S50000x128 ![0, 1] bcast_S50000x1_S50000x128_0_1 : (⟨S50000x1, .f32⟩ : BufTy).Contents (Elt F) → (⟨S50000x128, .f32⟩ : BufTy).Contents (Elt F)),
    StableHlo.binary main_v35 main_v36 main_v37 (Host.divf : (⟨S50000x128, .f32⟩ : BufTy).Contents (Elt F) → (⟨S50000x128, .f32⟩ : BufTy).Contents (Elt F) → (⟨S50000x128, .f32⟩ : BufTy).Contents (Elt F)),
    StableHlo.binary main_v31 main_v31 main_v38 (mulf : (⟨S50000x128, .f32⟩ : BufTy).Contents (Elt F) → (⟨S50000x128, .f32⟩ : BufTy).Contents (Elt F) → (⟨S50000x128, .f32⟩ : BufTy).Contents (Elt F)),
    StableHlo.binary main_v37 main_v38 main_v39 (subf : (⟨S50000x128, .f32⟩ : BufTy).Contents (Elt F) → (⟨S50000x128, .f32⟩ : BufTy).Contents (Elt F) → (⟨S50000x128, .f32⟩ : BufTy).Contents (Elt F)) ]

noncomputable abbrev opsB1 : List (HloOp τ sig (Elt F)) :=
  [
    StableHlo.TRef.nullary main_call1.cst (constant S_ .f32 0x00000000#32),
    StableHlo.TRef.unary main_call1.cst main_call1.v0 (broadcastInDim S50000x128 ![] bcast_S_S50000x128),
    StableHlo.TRef.binary (StableHlo.TRef.of main_v39 : StableHlo.TRef sig ⟨S50000x128, .f32⟩) main_call1.v0 main_call1.v1 maximumf,
    StableHlo.nullary main_cst_6 (constant S_ .f32 0x358637BD#32),
    StableHlo.unary main_cst_6 main_v41 (broadcastInDim S50000x128 ![] bcast_S_S50000x128 : (⟨S_, .f32⟩ : BufTy).Contents (Elt F) → (⟨S50000x128, .f32⟩ : BufTy).Contents (Elt F)),
    StableHlo.binary main_v40 main_v41 main_v42 (addf : (⟨S50000x128, .f32⟩ : BufTy).Contents (Elt F) → (⟨S50000x128, .f32⟩ : BufTy).Contents (Elt F) → (⟨S50000x128, .f32⟩ : BufTy).Contents (Elt F)),
    StableHlo.unary main_v42 main_v43 (Host.sqrt : (⟨S50000x128, .f32⟩ : BufTy).Contents (Elt F) → (⟨S50000x128, .f32⟩ : BufTy).Contents (Elt F)),
    StableHlo.nullary main_c_7 (constantI S_ 32 0#32),
    StableHlo.unary main_c_7 main_v44 (broadcastInDim S800000 ![] bcast_S_S800000 : (⟨S_, .i32⟩ : BufTy).Contents (Elt F) → (⟨S800000, .i32⟩ : BufTy).Contents (Elt F)),
    StableHlo.binary main_v1 main_v44 main_v45 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v46 (broadcastInDim S800000 ![] bcast_S_S800000 : (⟨S_, .i32⟩ : BufTy).Contents (Elt F) → (⟨S800000, .i32⟩ : BufTy).Contents (Elt F)),
    StableHlo.binary main_v1 main_v46 main_v47 (addi : (⟨S800000, .i32⟩ : BufTy).Contents (Elt F) → (⟨S800000, .i32⟩ : BufTy).Contents (Elt F) → (⟨S800000, .i32⟩ : BufTy).Contents (Elt F)),
    StableHlo.ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

noncomputable abbrev opsB2 : List (HloOp τ sig (Elt F)) :=
  [
    StableHlo.unary main_v48 main_v49 (broadcastInDim S800000x1 ![0] bcast_S800000_S800000x1_0 : (⟨S800000, .i32⟩ : BufTy).Contents (Elt F) → (⟨S800000x1, .i32⟩ : BufTy).Contents (Elt F)),
    StableHlo.binary main_v31 main_v49 main_v50 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v20 main_v50 main_v51 (subf : (⟨S800000x128, .f32⟩ : BufTy).Contents (Elt F) → (⟨S800000x128, .f32⟩ : BufTy).Contents (Elt F) → (⟨S800000x128, .f32⟩ : BufTy).Contents (Elt F)),
    StableHlo.binary main_v51 main_v51 main_v52 (mulf : (⟨S800000x128, .f32⟩ : BufTy).Contents (Elt F) → (⟨S800000x128, .f32⟩ : BufTy).Contents (Elt F) → (⟨S800000x128, .f32⟩ : BufTy).Contents (Elt F)),
    StableHlo.binary main_v52 main_v51 main_v53 (mulf : (⟨S800000x128, .f32⟩ : BufTy).Contents (Elt F) → (⟨S800000x128, .f32⟩ : BufTy).Contents (Elt F) → (⟨S800000x128, .f32⟩ : BufTy).Contents (Elt F)),
    StableHlo.nullary main_cst_9 (constant S_ .f32 0x00000000#32),
    StableHlo.unary main_cst_9 main_v54 (broadcastInDim S50000x128 ![] bcast_S_S50000x128 : (⟨S_, .f32⟩ : BufTy).Contents (Elt F) → (⟨S50000x128, .f32⟩ : BufTy).Contents (Elt F)),
    StableHlo.unary main_v1 main_v55 (broadcastInDim S800000x1 ![0] bcast_S800000_S800000x1_0 : (⟨S800000, .i32⟩ : BufTy).Contents (Elt F) → (⟨S800000x1, .i32⟩ : BufTy).Contents (Elt F)),
    StableHlo.ternary main_v54 main_v55 main_v53 main_v56 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v26 main_v57 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v57 main_v58 (Host.divf : (⟨S50000x128, .f32⟩ : BufTy).Contents (Elt F) → (⟨S50000x128, .f32⟩ : BufTy).Contents (Elt F) → (⟨S50000x128, .f32⟩ : BufTy).Contents (Elt F)),
    StableHlo.binary main_v43 main_v43 main_v59 (mulf : (⟨S50000x128, .f32⟩ : BufTy).Contents (Elt F) → (⟨S50000x128, .f32⟩ : BufTy).Contents (Elt F) → (⟨S50000x128, .f32⟩ : BufTy).Contents (Elt F)),
    StableHlo.binary main_v59 main_v43 main_v60 (mulf : (⟨S50000x128, .f32⟩ : BufTy).Contents (Elt F) → (⟨S50000x128, .f32⟩ : BufTy).Contents (Elt F) → (⟨S50000x128, .f32⟩ : BufTy).Contents (Elt F)),
    StableHlo.binary main_v58 main_v60 main_v61 (Host.divf : (⟨S50000x128, .f32⟩ : BufTy).Contents (Elt F) → (⟨S50000x128, .f32⟩ : BufTy).Contents (Elt F) → (⟨S50000x128, .f32⟩ : BufTy).Contents (Elt F)),
    StableHlo.binary main_v53 main_v51 main_v62 (mulf : (⟨S800000x128, .f32⟩ : BufTy).Contents (Elt F) → (⟨S800000x128, .f32⟩ : BufTy).Contents (Elt F) → (⟨S800000x128, .f32⟩ : BufTy).Contents (Elt F)),
    StableHlo.nullary main_cst_10 (constant S_ .f32 0x00000000#32),
    StableHlo.unary main_cst_10 main_v63 (broadcastInDim S50000x128 ![] bcast_S_S50000x128 : (⟨S_, .f32⟩ : BufTy).Contents (Elt F) → (⟨S50000x128, .f32⟩ : BufTy).Contents (Elt F)),
    StableHlo.unary main_v1 main_v64 (broadcastInDim S800000x1 ![0] bcast_S800000_S800000x1_0 : (⟨S800000, .i32⟩ : BufTy).Contents (Elt F) → (⟨S800000x1, .i32⟩ : BufTy).Contents (Elt F)),
    StableHlo.ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v26 main_v66 (broadcastInDim S50000x128 ![0, 1] bcast_S50000x1_S50000x128_0_1 : (⟨S50000x1, .f32⟩ : BufTy).Contents (Elt F) → (⟨S50000x128, .f32⟩ : BufTy).Contents (Elt F)),
    StableHlo.binary main_v65 main_v66 main_v67 (Host.divf : (⟨S50000x128, .f32⟩ : BufTy).Contents (Elt F) → (⟨S50000x128, .f32⟩ : BufTy).Contents (Elt F) → (⟨S50000x128, .f32⟩ : BufTy).Contents (Elt F)),
    StableHlo.binary main_v43 main_v43 main_v68 (mulf : (⟨S50000x128, .f32⟩ : BufTy).Contents (Elt F) → (⟨S50000x128, .f32⟩ : BufTy).Contents (Elt F) → (⟨S50000x128, .f32⟩ : BufTy).Contents (Elt F)),
    StableHlo.binary main_v68 main_v68 main_v69 (mulf : (⟨S50000x128, .f32⟩ : BufTy).Contents (Elt F) → (⟨S50000x128, .f32⟩ : BufTy).Contents (Elt F) → (⟨S50000x128, .f32⟩ : BufTy).Contents (Elt F)),
    StableHlo.binary main_v67 main_v69 main_v70 (Host.divf : (⟨S50000x128, .f32⟩ : BufTy).Contents (Elt F) → (⟨S50000x128, .f32⟩ : BufTy).Contents (Elt F) → (⟨S50000x128, .f32⟩ : BufTy).Contents (Elt F)) ]

noncomputable abbrev opsB3 : List (HloOp τ sig (Elt F)) :=
  [
    StableHlo.TRef.binary (StableHlo.TRef.of main_v31 : StableHlo.TRef sig ⟨S50000x128, .f32⟩) (StableHlo.TRef.of main_v31 : StableHlo.TRef sig ⟨S50000x128, .f32⟩) main_call2.v0 (cmpf .une),
    StableHlo.TRef.nullary main_call2.cst (constant S_ .f32 0x00000000#32),
    StableHlo.TRef.unary main_call2.cst main_call2.call0.v0 (broadcastInDim S50000x128 ![] bcast_S_S50000x128),
    StableHlo.TRef.ternary main_call2.v0 main_call2.call0.v0 (StableHlo.TRef.of main_v31 : StableHlo.TRef sig ⟨S50000x128, .f32⟩) main_call2.call0.v1 select,
    StableHlo.TRef.nullary main_call2.cst_0 (constant S_ .f32 0x7F800000#32),
    StableHlo.TRef.unary main_call2.cst_0 main_call2.v2 (broadcastInDim S50000x128 ![] bcast_S_S50000x128),
    StableHlo.TRef.binary main_call2.call0.v1 main_call2.v2 main_call2.v3 (cmpf .oeq),
    StableHlo.TRef.nullary main_call2.cst_1 (constant S_ .f32 0x7F7FFFFF#32),
    StableHlo.TRef.unary main_call2.cst_1 main_call2.call1.v0 (broadcastInDim S50000x128 ![] bcast_S_S50000x128),
    StableHlo.TRef.ternary main_call2.v3 main_call2.call1.v0 main_call2.call0.v1 main_call2.call1.v1 select,
    StableHlo.TRef.nullary main_call2.cst_2 (constant S_ .f32 0xFF800000#32),
    StableHlo.TRef.unary main_call2.cst_2 main_call2.v5 (broadcastInDim S50000x128 ![] bcast_S_S50000x128),
    StableHlo.TRef.binary main_call2.call1.v1 main_call2.v5 main_call2.v6 (cmpf .oeq),
    StableHlo.TRef.nullary main_call2.cst_3 (constant S_ .f32 0xFF7FFFFF#32),
    StableHlo.TRef.unary main_call2.cst_3 main_call2.call2.v0 (broadcastInDim S50000x128 ![] bcast_S_S50000x128),
    StableHlo.TRef.ternary main_call2.v6 main_call2.call2.v0 main_call2.call1.v1 main_call2.call2.v1 select,
    StableHlo.TRef.binary (StableHlo.TRef.of main_v40 : StableHlo.TRef sig ⟨S50000x128, .f32⟩) (StableHlo.TRef.of main_v40 : StableHlo.TRef sig ⟨S50000x128, .f32⟩) main_call3.v0 (cmpf .une),
    StableHlo.TRef.nullary main_call3.cst (constant S_ .f32 0x00000000#32),
    StableHlo.TRef.unary main_call3.cst main_call3.call0.v0 (broadcastInDim S50000x128 ![] bcast_S_S50000x128),
    StableHlo.TRef.ternary main_call3.v0 main_call3.call0.v0 (StableHlo.TRef.of main_v40 : StableHlo.TRef sig ⟨S50000x128, .f32⟩) main_call3.call0.v1 select,
    StableHlo.TRef.nullary main_call3.cst_0 (constant S_ .f32 0x7F800000#32),
    StableHlo.TRef.unary main_call3.cst_0 main_call3.v2 (broadcastInDim S50000x128 ![] bcast_S_S50000x128),
    StableHlo.TRef.binary main_call3.call0.v1 main_call3.v2 main_call3.v3 (cmpf .oeq),
    StableHlo.TRef.nullary main_call3.cst_1 (constant S_ .f32 0x7F7FFFFF#32),
    StableHlo.TRef.unary main_call3.cst_1 main_call3.call1.v0 (broadcastInDim S50000x128 ![] bcast_S_S50000x128),
    StableHlo.TRef.ternary main_call3.v3 main_call3.call1.v0 main_call3.call0.v1 main_call3.call1.v1 select,
    StableHlo.TRef.nullary main_call3.cst_2 (constant S_ .f32 0xFF800000#32),
    StableHlo.TRef.unary main_call3.cst_2 main_call3.v5 (broadcastInDim S50000x128 ![] bcast_S_S50000x128),
    StableHlo.TRef.binary main_call3.call1.v1 main_call3.v5 main_call3.v6 (cmpf .oeq),
    StableHlo.TRef.nullary main_call3.cst_3 (constant S_ .f32 0xFF7FFFFF#32),
    StableHlo.TRef.unary main_call3.cst_3 main_call3.call2.v0 (broadcastInDim S50000x128 ![] bcast_S_S50000x128),
    StableHlo.TRef.ternary main_call3.v6 main_call3.call2.v0 main_call3.call1.v1 main_call3.call2.v1 select,
    StableHlo.nullary main_cst_11 (constant S_ .f32 0x358637BD#32),
    StableHlo.unary main_cst_11 main_v73 (broadcastInDim S50000x128 ![] bcast_S_S50000x128 : (⟨S_, .f32⟩ : BufTy).Contents (Elt F) → (⟨S50000x128, .f32⟩ : BufTy).Contents (Elt F)),
    StableHlo.binary main_v72 main_v73 main_v74 (addf : (⟨S50000x128, .f32⟩ : BufTy).Contents (Elt F) → (⟨S50000x128, .f32⟩ : BufTy).Contents (Elt F) → (⟨S50000x128, .f32⟩ : BufTy).Contents (Elt F)),
    StableHlo.unary main_v74 main_v75 (Host.sqrt : (⟨S50000x128, .f32⟩ : BufTy).Contents (Elt F) → (⟨S50000x128, .f32⟩ : BufTy).Contents (Elt F)) ]

noncomputable abbrev opsB4 : List (HloOp τ sig (Elt F)) :=
  [
    StableHlo.TRef.binary (StableHlo.TRef.of main_v61 : StableHlo.TRef sig ⟨S50000x128, .f32⟩) (StableHlo.TRef.of main_v61 : StableHlo.TRef sig ⟨S50000x128, .f32⟩) main_call4.v0 (cmpf .une),
    StableHlo.TRef.nullary main_call4.cst (constant S_ .f32 0x00000000#32),
    StableHlo.TRef.unary main_call4.cst main_call4.call0.v0 (broadcastInDim S50000x128 ![] bcast_S_S50000x128),
    StableHlo.TRef.ternary main_call4.v0 main_call4.call0.v0 (StableHlo.TRef.of main_v61 : StableHlo.TRef sig ⟨S50000x128, .f32⟩) main_call4.call0.v1 select,
    StableHlo.TRef.nullary main_call4.cst_0 (constant S_ .f32 0x7F800000#32),
    StableHlo.TRef.unary main_call4.cst_0 main_call4.v2 (broadcastInDim S50000x128 ![] bcast_S_S50000x128),
    StableHlo.TRef.binary main_call4.call0.v1 main_call4.v2 main_call4.v3 (cmpf .oeq),
    StableHlo.TRef.nullary main_call4.cst_1 (constant S_ .f32 0x7F7FFFFF#32),
    StableHlo.TRef.unary main_call4.cst_1 main_call4.call1.v0 (broadcastInDim S50000x128 ![] bcast_S_S50000x128),
    StableHlo.TRef.ternary main_call4.v3 main_call4.call1.v0 main_call4.call0.v1 main_call4.call1.v1 select,
    StableHlo.TRef.nullary main_call4.cst_2 (constant S_ .f32 0xFF800000#32),
    StableHlo.TRef.unary main_call4.cst_2 main_call4.v5 (broadcastInDim S50000x128 ![] bcast_S_S50000x128),
    StableHlo.TRef.binary main_call4.call1.v1 main_call4.v5 main_call4.v6 (cmpf .oeq),
    StableHlo.TRef.nullary main_call4.cst_3 (constant S_ .f32 0xFF7FFFFF#32),
    StableHlo.TRef.unary main_call4.cst_3 main_call4.call2.v0 (broadcastInDim S50000x128 ![] bcast_S_S50000x128),
    StableHlo.TRef.ternary main_call4.v6 main_call4.call2.v0 main_call4.call1.v1 main_call4.call2.v1 select,
    StableHlo.TRef.binary (StableHlo.TRef.of main_v70 : StableHlo.TRef sig ⟨S50000x128, .f32⟩) (StableHlo.TRef.of main_v70 : StableHlo.TRef sig ⟨S50000x128, .f32⟩) main_call5.v0 (cmpf .une),
    StableHlo.TRef.nullary main_call5.cst (constant S_ .f32 0x00000000#32),
    StableHlo.TRef.unary main_call5.cst main_call5.call0.v0 (broadcastInDim S50000x128 ![] bcast_S_S50000x128),
    StableHlo.TRef.ternary main_call5.v0 main_call5.call0.v0 (StableHlo.TRef.of main_v70 : StableHlo.TRef sig ⟨S50000x128, .f32⟩) main_call5.call0.v1 select,
    StableHlo.TRef.nullary main_call5.cst_0 (constant S_ .f32 0x7F800000#32),
    StableHlo.TRef.unary main_call5.cst_0 main_call5.v2 (broadcastInDim S50000x128 ![] bcast_S_S50000x128),
    StableHlo.TRef.binary main_call5.call0.v1 main_call5.v2 main_call5.v3 (cmpf .oeq),
    StableHlo.TRef.nullary main_call5.cst_1 (constant S_ .f32 0x7F7FFFFF#32),
    StableHlo.TRef.unary main_call5.cst_1 main_call5.call1.v0 (broadcastInDim S50000x128 ![] bcast_S_S50000x128),
    StableHlo.TRef.ternary main_call5.v3 main_call5.call1.v0 main_call5.call0.v1 main_call5.call1.v1 select,
    StableHlo.TRef.nullary main_call5.cst_2 (constant S_ .f32 0xFF800000#32),
    StableHlo.TRef.unary main_call5.cst_2 main_call5.v5 (broadcastInDim S50000x128 ![] bcast_S_S50000x128),
    StableHlo.TRef.binary main_call5.call1.v1 main_call5.v5 main_call5.v6 (cmpf .oeq),
    StableHlo.TRef.nullary main_call5.cst_3 (constant S_ .f32 0xFF7FFFFF#32),
    StableHlo.TRef.unary main_call5.cst_3 main_call5.call2.v0 (broadcastInDim S50000x128 ![] bcast_S_S50000x128),
    StableHlo.TRef.ternary main_call5.v6 main_call5.call2.v0 main_call5.call1.v1 main_call5.call2.v1 select ]

noncomputable abbrev opsC : List (HloOp τ sig (Elt F)) :=
  [
    StableHlo.nullary main_c_12 (constantI S_ 32 0#32),
    StableHlo.unary main_c_12 main_v78 (broadcastInDim S50000 ![] bcast_S_S50000 : (⟨S_, .i32⟩ : BufTy).Contents (Elt F) → (⟨S50000, .i32⟩ : BufTy).Contents (Elt F)),
    StableHlo.binary main_arg5 main_v78 main_v79 (cmpi .slt : (⟨S50000, .i32⟩ : BufTy).Contents (Elt F) → (⟨S50000, .i32⟩ : BufTy).Contents (Elt F) → (⟨S50000, .i1⟩ : BufTy).Contents (Elt F)),
    StableHlo.nullary main_c_13 (constantI S_ 32 8#32),
    StableHlo.unary main_c_13 main_v80 (broadcastInDim S50000 ![] bcast_S_S50000 : (⟨S_, .i32⟩ : BufTy).Contents (Elt F) → (⟨S50000, .i32⟩ : BufTy).Contents (Elt F)),
    StableHlo.binary main_arg5 main_v80 main_v81 (addi : (⟨S50000, .i32⟩ : BufTy).Contents (Elt F) → (⟨S50000, .i32⟩ : BufTy).Contents (Elt F) → (⟨S50000, .i32⟩ : BufTy).Contents (Elt F)),
    StableHlo.ternary main_v79 main_v81 main_arg5 main_v82 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v82 main_v83 (broadcastInDim S50000x1 ![0] bcast_S50000_S50000x1_0 : (⟨S50000, .i32⟩ : BufTy).Contents (Elt F) → (⟨S50000x1, .i32⟩ : BufTy).Contents (Elt F)),
    StableHlo.binary main_arg4 main_v83 main_v84 ((fun x i => Host.gather gather_S8x64_S50000x1_S50000x64_1_0_n_n_0_1_164 x i) : (⟨S8x64, .f32⟩ : BufTy).Contents (Elt F) → (⟨S50000x1, .i32⟩ : BufTy).Contents (Elt F) → (⟨S50000x64, .f32⟩ : BufTy).Contents (Elt F)) ]

noncomputable abbrev opsD : List (HloOp τ sig (Elt F)) :=
  [
    StableHlo.nary ![main_arg0, main_v24, main_v71, main_v75, main_v76, main_v77, main_v84] main_v85 (fun u => concatenate S50000x705 1 [⟨S50000x128, u 0⟩, ⟨S50000x1, u 1⟩, ⟨S50000x128, u 2⟩, ⟨S50000x128, u 3⟩, ⟨S50000x128, u 4⟩, ⟨S50000x128, u 5⟩, ⟨S50000x64, u 6⟩] concatenates_S50000x128_S50000x1_S50000x128_S50000x128_S50000x128_S50000x128_S50000x64_S50000x705_d1),
    StableHlo.binary main_v85 main_arg10 main_v86 ((fun l r => Host.dotGeneral dot_S50000x705_S705x128_S50000x128_1_0_0_1_n_n none l r) : (⟨S50000x705, .f32⟩ : BufTy).Contents (Elt F) → (⟨S705x128, .f32⟩ : BufTy).Contents (Elt F) → (⟨S50000x128, .f32⟩ : BufTy).Contents (Elt F)),
    StableHlo.unary main_arg11 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v86 main_v88 main_v89 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3DCCCCCD#32),
    StableHlo.TRef.nullary main_call6.cst (constant S_ .f32 0x00000000#32),
    StableHlo.TRef.unary main_call6.cst main_call6.v0 (broadcastInDim S50000x128 ![] bcast_S_S50000x128),
    StableHlo.TRef.binary (StableHlo.TRef.of main_v89 : StableHlo.TRef sig ⟨S50000x128, .f32⟩) main_call6.v0 main_call6.v1 (cmpf .oge),
    StableHlo.TRef.unary (StableHlo.TRef.of main_cst_14 : StableHlo.TRef sig ⟨S_, .f32⟩) main_call6.v2 id,
    StableHlo.TRef.unary main_call6.v2 main_call6.v3 (broadcastInDim S50000x128 ![] bcast_S_S50000x128),
    StableHlo.TRef.binary main_call6.v3 (StableHlo.TRef.of main_v89 : StableHlo.TRef sig ⟨S50000x128, .f32⟩) main_call6.v4 mulf,
    StableHlo.TRef.ternary main_call6.v1 (StableHlo.TRef.of main_v89 : StableHlo.TRef sig ⟨S50000x128, .f32⟩) main_call6.v4 main_call6.call0.v0 select,
    StableHlo.binary main_v90 main_arg12 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (addf : (⟨S50000x128, .f32⟩ : BufTy).Contents (Elt F) → (⟨S50000x128, .f32⟩ : BufTy).Contents (Elt F) → (⟨S50000x128, .f32⟩ : BufTy).Contents (Elt F)) ]

noncomputable abbrev opsA : List (HloOp τ sig (Elt F)) := opsA0 ++ opsA1
noncomputable abbrev opsB : List (HloOp τ sig (Elt F)) := opsB0 ++ (opsB1 ++ (opsB2 ++ (opsB3 ++ opsB4)))
noncomputable abbrev ops : List (HloOp τ sig (Elt F)) := opsA ++ opsB ++ opsC ++ opsD

protected theorem after_append : ∀ (l₁ l₂ : List (HloOp τ sig (Elt F))) (V : Valuation τ sig (Elt F)),
    after (l₁ ++ l₂) V = after l₂ (after l₁ V) := StableHlo.after_append

theorem after_split (W : Valuation τ sig (Elt F)) :
    after ops W = after opsD (after opsC (after opsB (after opsA W))) := by
  simp only [ops, Ran.after_append]

theorem main_eq (c : Dev nD) : main (F := F) c = seq ops := rfl

theorem ops_sub : (ops : List (HloOp τ sig (Elt F))).Forall fun op => op.bufs ⊆ tcRefs τ sig := by
  simp only [ops, opsA, opsB, List.forall_append, List.Forall]
  with_reducible repeat' first | exact nullary_bufs_sub .. | exact unary_bufs_sub .. | exact binary_bufs_sub .. | exact ternary_bufs_sub .. | exact reshape_bufs_sub .. | exact nary_bufs_sub .. | constructor

theorem ops_fresh : (ops : List (HloOp τ sig (Elt F))).Forall fun op => op.fresh = ∅ := by
  simp only [ops, opsA, opsB, List.forall_append, List.Forall]; repeat' constructor

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq (by decide) (by decide) defs main (fun _ => ops) main_eq (fun _ => ops_sub) m ρ
    (fun _ => List.forall_iff_forall_mem.1 ops_fresh)

abbrev args : List (Ref sig .tc) := [main_arg0, main_arg1, main_arg2, main_arg3, main_arg4, main_arg5, main_arg6, main_arg7, main_arg8, main_arg9, main_arg10, main_arg11, main_arg12, main_arg13]

-- Operations that write, one by one, exactly the references of a list write inside that list.
theorem writes_of {l : List (HloOp τ sig (Elt F))} {W : List (Ref sig .tc)}
    (h : List.Forall₂ (fun op y => op.writes = {Proc.devRef (τ := τ) .tc y}) l W) :
    l.Forall fun op => op.writes ⊆ (W.map (Proc.devRef (τ := τ) .tc)).toFinset := by
  induction h with
  | nil => trivial
  | cons e _ ih =>
    rw [List.forall_cons, List.map_cons, List.toFinset_cons, e]
    exact ⟨Finset.singleton_subset_iff.2 (Finset.mem_insert_self _ _), ih.imp fun _ h => h.trans (Finset.subset_insert _ _)⟩

noncomputable abbrev opsA0_W : List (Ref sig .tc) :=
  [main_v0, main_v1, main_v2, main_v3, main_c, main_v4,
    main_v5, main_c_0, main_v6, main_v7, main_v8, main_v9,
    main_v10]
theorem opsA0_writes : (opsA0 : List (HloOp τ sig (Elt F))).Forall fun op =>
    op.writes ⊆ (opsA0_W.map (Proc.devRef (τ := τ) .tc)).toFinset :=
  writes_of (by repeat' constructor)

noncomputable abbrev opsA1_W : List (Ref sig .tc) :=
  [main_v11, main_v12, main_v13, main_v14, main_v15, main_cst,
    (main_call0.cst).ref, (main_call0.v0).ref, (main_call0.v1).ref, (main_call0.v2).ref, (main_call0.v3).ref, (main_call0.v4).ref,
    (main_call0.call0.v0).ref, main_v17, main_v18, main_v19, main_v20]
theorem opsA1_writes : (opsA1 : List (HloOp τ sig (Elt F))).Forall fun op =>
    op.writes ⊆ (opsA1_W.map (Proc.devRef (τ := τ) .tc)).toFinset :=
  writes_of (by repeat' constructor)

noncomputable abbrev opsB0_W : List (Ref sig .tc) :=
  [main_cst_1, main_v21, main_cst_2, main_v22, main_v23, main_v24,
    main_cst_3, main_v25, main_v26, main_cst_4, main_v27, main_v28,
    main_v29, main_v30, main_v31, main_v32, main_cst_5, main_v33,
    main_v34, main_v35, main_v36, main_v37, main_v38, main_v39]
theorem opsB0_writes : (opsB0 : List (HloOp τ sig (Elt F))).Forall fun op =>
    op.writes ⊆ (opsB0_W.map (Proc.devRef (τ := τ) .tc)).toFinset :=
  writes_of (by repeat' constructor)

noncomputable abbrev opsB1_W : List (Ref sig .tc) :=
  [(main_call1.cst).ref, (main_call1.v0).ref, (main_call1.v1).ref, main_cst_6, main_v41, main_v42,
    main_v43, main_c_7, main_v44, main_v45, main_c_8, main_v46,
    main_v47, main_v48]
theorem opsB1_writes : (opsB1 : List (HloOp τ sig (Elt F))).Forall fun op =>
    op.writes ⊆ (opsB1_W.map (Proc.devRef (τ := τ) .tc)).toFinset :=
  writes_of (by repeat' constructor)

noncomputable abbrev opsB2_W : List (Ref sig .tc) :=
  [main_v49, main_v50, main_v51, main_v52, main_v53, main_cst_9,
    main_v54, main_v55, main_v56, main_v57, main_v58, main_v59,
    main_v60, main_v61, main_v62, main_cst_10, main_v63, main_v64,
    main_v65, main_v66, main_v67, main_v68, main_v69, main_v70]
theorem opsB2_writes : (opsB2 : List (HloOp τ sig (Elt F))).Forall fun op =>
    op.writes ⊆ (opsB2_W.map (Proc.devRef (τ := τ) .tc)).toFinset :=
  writes_of (by repeat' constructor)

noncomputable abbrev opsB3_W : List (Ref sig .tc) :=
  [(main_call2.v0).ref, (main_call2.cst).ref, (main_call2.call0.v0).ref, (main_call2.call0.v1).ref, (main_call2.cst_0).ref, (main_call2.v2).ref,
    (main_call2.v3).ref, (main_call2.cst_1).ref, (main_call2.call1.v0).ref, (main_call2.call1.v1).ref, (main_call2.cst_2).ref, (main_call2.v5).ref,
    (main_call2.v6).ref, (main_call2.cst_3).ref, (main_call2.call2.v0).ref, (main_call2.call2.v1).ref, (main_call3.v0).ref, (main_call3.cst).ref,
    (main_call3.call0.v0).ref, (main_call3.call0.v1).ref, (main_call3.cst_0).ref, (main_call3.v2).ref, (main_call3.v3).ref, (main_call3.cst_1).ref,
    (main_call3.call1.v0).ref, (main_call3.call1.v1).ref, (main_call3.cst_2).ref, (main_call3.v5).ref, (main_call3.v6).ref, (main_call3.cst_3).ref,
    (main_call3.call2.v0).ref, (main_call3.call2.v1).ref, main_cst_11, main_v73, main_v74, main_v75]
theorem opsB3_writes : (opsB3 : List (HloOp τ sig (Elt F))).Forall fun op =>
    op.writes ⊆ (opsB3_W.map (Proc.devRef (τ := τ) .tc)).toFinset :=
  writes_of (by repeat' constructor)

noncomputable abbrev opsB4_W : List (Ref sig .tc) :=
  [(main_call4.v0).ref, (main_call4.cst).ref, (main_call4.call0.v0).ref, (main_call4.call0.v1).ref, (main_call4.cst_0).ref, (main_call4.v2).ref,
    (main_call4.v3).ref, (main_call4.cst_1).ref, (main_call4.call1.v0).ref, (main_call4.call1.v1).ref, (main_call4.cst_2).ref, (main_call4.v5).ref,
    (main_call4.v6).ref, (main_call4.cst_3).ref, (main_call4.call2.v0).ref, (main_call4.call2.v1).ref, (main_call5.v0).ref, (main_call5.cst).ref,
    (main_call5.call0.v0).ref, (main_call5.call0.v1).ref, (main_call5.cst_0).ref, (main_call5.v2).ref, (main_call5.v3).ref, (main_call5.cst_1).ref,
    (main_call5.call1.v0).ref, (main_call5.call1.v1).ref, (main_call5.cst_2).ref, (main_call5.v5).ref, (main_call5.v6).ref, (main_call5.cst_3).ref,
    (main_call5.call2.v0).ref, (main_call5.call2.v1).ref]
theorem opsB4_writes : (opsB4 : List (HloOp τ sig (Elt F))).Forall fun op =>
    op.writes ⊆ (opsB4_W.map (Proc.devRef (τ := τ) .tc)).toFinset :=
  writes_of (by repeat' constructor)

noncomputable abbrev opsC_W : List (Ref sig .tc) :=
  [main_c_12, main_v78, main_v79, main_c_13, main_v80, main_v81,
    main_v82, main_v83, main_v84]
theorem opsC_writes : (opsC : List (HloOp τ sig (Elt F))).Forall fun op =>
    op.writes ⊆ (opsC_W.map (Proc.devRef (τ := τ) .tc)).toFinset :=
  writes_of (by repeat' constructor)

noncomputable abbrev opsD_W : List (Ref sig .tc) :=
  [main_v85, main_v86, main_v87, main_v88, main_v89, main_cst_14,
    (main_call6.cst).ref, (main_call6.v0).ref, (main_call6.v1).ref, (main_call6.v2).ref, (main_call6.v3).ref, (main_call6.v4).ref,
    (main_call6.call0.v0).ref, main_v91, main_v92, main_v93, main_v94]
theorem opsD_writes : (opsD : List (HloOp τ sig (Elt F))).Forall fun op =>
    op.writes ⊆ (opsD_W.map (Proc.devRef (τ := τ) .tc)).toFinset :=
  writes_of (by repeat' constructor)

theorem args_unwritten : ∀ r ∈ args, ∀ W ∈ [opsA0_W, opsA1_W, opsB0_W, opsB1_W, opsB2_W, opsB3_W, opsB4_W, opsC_W, opsD_W], r ∉ W := by
  decide

theorem opsA0_args : ∀ r ∈ args, r ∉ opsA0_W := fun r hr => args_unwritten r hr _ (by simp)
theorem opsA1_args : ∀ r ∈ args, r ∉ opsA1_W := fun r hr => args_unwritten r hr _ (by simp)
theorem opsB0_args : ∀ r ∈ args, r ∉ opsB0_W := fun r hr => args_unwritten r hr _ (by simp)
theorem opsB1_args : ∀ r ∈ args, r ∉ opsB1_W := fun r hr => args_unwritten r hr _ (by simp)
theorem opsB2_args : ∀ r ∈ args, r ∉ opsB2_W := fun r hr => args_unwritten r hr _ (by simp)
theorem opsB3_args : ∀ r ∈ args, r ∉ opsB3_W := fun r hr => args_unwritten r hr _ (by simp)
theorem opsB4_args : ∀ r ∈ args, r ∉ opsB4_W := fun r hr => args_unwritten r hr _ (by simp)
theorem opsC_args : ∀ r ∈ args, r ∉ opsC_W := fun r hr => args_unwritten r hr _ (by simp)
theorem opsD_args : ∀ r ∈ args, r ∉ opsD_W := fun r hr => args_unwritten r hr _ (by simp)

theorem kept (m : (ℓ : Loc nD τ sig) → Buf (Elt F) ℓ) (c : Dev nD) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    after ops (launchContents m c) (Proc.devRef .tc r) = m ((c.tc : Thread nD τ).loc r) := by
  simp only [ops, opsA, opsB, Ran.after_append]
  rw [after_of_writes_sub opsD _ opsD_writes (opsD_args r hr), after_of_writes_sub opsC _ opsC_writes (opsC_args r hr),
    after_of_writes_sub opsB4 _ opsB4_writes (opsB4_args r hr), after_of_writes_sub opsB3 _ opsB3_writes (opsB3_args r hr),
    after_of_writes_sub opsB2 _ opsB2_writes (opsB2_args r hr), after_of_writes_sub opsB1 _ opsB1_writes (opsB1_args r hr),
    after_of_writes_sub opsB0 _ opsB0_writes (opsB0_args r hr), after_of_writes_sub opsA1 _ opsA1_writes (opsA1_args r hr),
    after_of_writes_sub opsA0 _ opsA0_writes (opsA0_args r hr)]

end Cert.ReferenceIdeal.Ran

end
-- ==== Proof.RefKept.lean ====
import proofs.«425747_j24756191494619_2_alg».proof.Proof.RefRun

noncomputable section

namespace Cert.ReferenceIdeal.Ran

open Cert.ReferenceIdeal Cert.ReferenceIdeal.Gen Idealize.ShloMosaic Idealize.ShloMosaic.TcCoe Idealize.SL.Sem Idealize.ShloMosaic.StableHlo

variable {F : FTy → Type} [FloatOps F]

theorem keptA (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    after opsA W (Proc.devRef .tc r) = W (Proc.devRef .tc r) := by
  simp only [opsA, Ran.after_append]
  rw [after_of_writes_sub opsA1 _ opsA1_writes (opsA1_args r hr), after_of_writes_sub opsA0 _ opsA0_writes (opsA0_args r hr)]

theorem keptB (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    after opsB W (Proc.devRef .tc r) = W (Proc.devRef .tc r) := by
  simp only [opsB, Ran.after_append]
  rw [after_of_writes_sub opsB4 _ opsB4_writes (opsB4_args r hr), after_of_writes_sub opsB3 _ opsB3_writes (opsB3_args r hr),
    after_of_writes_sub opsB2 _ opsB2_writes (opsB2_args r hr), after_of_writes_sub opsB1 _ opsB1_writes (opsB1_args r hr),
    after_of_writes_sub opsB0 _ opsB0_writes (opsB0_args r hr)]

theorem keptC (W : Valuation τ sig (Elt F)) (r : Ref sig .tc)
    (hr : r ∈ ([main_arg0, main_arg1, main_arg2, main_arg3, main_arg4, main_arg5, main_arg6, main_arg7, main_arg8, main_arg9, main_arg10, main_arg11, main_arg12, main_arg13] : List (Ref sig .tc))) :
    after opsC W (Proc.devRef .tc r) = W (Proc.devRef .tc r) :=
  after_of_writes_sub opsC W opsC_writes (opsC_args r hr)

end Cert.ReferenceIdeal.Ran

end
-- ==== Proof.Agreement.lean ====
import proofs.«425747_j24756191494619_2_alg».proof.KernelIdeal
import proofs.«425747_j24756191494619_2_alg».proof.ReferenceIdeal
import Idealize.ShloMosaic.PureOps.Ideal

noncomputable section

namespace Cert.Bridge

open Idealize.ShloMosaic Idealize.SL.Sem

set_option maxHeartbeats 4000000 in
structure Agree [Cert.KernelIdeal.Facts] [Cert.ReferenceIdeal.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

end Cert.Bridge

end
-- ==== Proof.LibAndAll.lean ====
import Idealize.ShloMosaic.PureOps.Reduce

namespace Idealize.ShloMosaic

namespace IntOp

theorem foldl_andi_of_all {ι : Type} (f : ι → BitVec 1) :
    ∀ l : List ι, (∀ n ∈ l, f n = 1#1) → l.foldl (fun r n => andi r (f n)) 1#1 = 1#1
  | [], _ => rfl
  | a :: l, h => by
    have e : andi 1#1 (f a) = 1#1 := by rw [h a (List.mem_cons_self ..)]; decide
    rw [List.foldl_cons, e]
    exact foldl_andi_of_all f l fun n hn => h n (List.mem_cons_of_mem _ hn)

end IntOp

namespace Host

variable {s t u : Shape} {axes : List (Fin s.rank)}

theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl, hinit]
  exact IntOp.foldl_andi_of_all x _ fun n _ => hx n

end Host

end Idealize.ShloMosaic
-- ==== Proof.TakeRows.lean ====
import proofs.«425747_j24756191494619_2_alg».proof.Proof.Gen.KernelIdeal.Launch
import Idealize.ShloMosaic.Lib.StableHlo.Run
import Idealize.ShloMosaic.PureOps.Reduce
import proofs.«425747_j24756191494619_2_alg».proof.Proof.LibAndAll

noncomputable section

namespace Cert.KernelIdeal.TakeRows

open Cert.KernelIdeal Cert.KernelIdeal.Gen Idealize.ShloMosaic Idealize.ShloMosaic.TcCoe Idealize.ShloMosaic.StableHlo

variable {F : FTy → Type} [FloatOps F]

theorem slt_zero_of_nonneg (a : BitVec 32) (h0 : 0 ≤ a.toInt) : IntOp.cmpi .slt a 0#32 = 0#1 := by
  have e : a.slt 0#32 = false := by
    simp only [BitVec.slt, BitVec.toInt_zero, decide_eq_false_iff_not, not_lt]; exact h0
  simp only [IntOp.cmpi, e]; rfl

theorem inrange_bit (a hi : BitVec 32) (h0 : 0 ≤ a.toInt) (h1 : a.toInt ≤ hi.toInt) :
    IntOp.andi (IntOp.cmpi .sge a 0#32) (IntOp.cmpi .sle a hi) = 1#1 := by
  have e0 : (0#32).sle a = true := by
    simp only [BitVec.sle, BitVec.toInt_zero, decide_eq_true_eq]; exact h0
  have e1 : a.sle hi = true := by
    simp only [BitVec.sle, decide_eq_true_eq]; exact h1
  simp only [IntOp.cmpi, e0, e1]; rfl

theorem wrap_id_gen {S S0 : Shape} {dS : Fin S0.rank → Fin S.rank} (hb : S0.BroadcastsInDim S dS) (n : BitVec 32)
    (i : IVec S 32) (h : ∀ e, 0 ≤ (i e).toInt) :
    select (cmpi .slt i (broadcastInDim S dS hb (constantI S0 32 0#32)))
      (addi i (broadcastInDim S dS hb (constantI S0 32 n))) i = i := by
  funext e
  show Scalar.select (IntOp.cmpi .slt (i e) 0#32) (IntOp.addi (i e) n) (i e) = i e
  rw [slt_zero_of_nonneg _ (h e)]; rfl

theorem wrap_id {S : Shape} (hb : (⟨0, ![]⟩ : Shape).BroadcastsInDim S (![] : Fin 0 → Fin S.rank)) (n : BitVec 32)
    (i : IVec S 32) (h : ∀ e, 0 ≤ (i e).toInt) :
    select (cmpi .slt i (broadcastInDim S ![] hb (constantI ⟨0, ![]⟩ 32 0#32)))
      (addi i (broadcastInDim S ![] hb (constantI ⟨0, ![]⟩ 32 n))) i = i :=
  wrap_id_gen hb n i h

/-- A take whose indices are all in `[0, hi]`: the wrap is the identity and the range mask is true everywhere, so it is the gather. -/
theorem take_pure {α : Type} {S SC SO T S0 S1 S11 : Shape}
    {dS : Fin S0.rank → Fin S.rank} (hbS : S0.BroadcastsInDim S dS)
    {dC : Fin S.rank → Fin SC.rank} (hbC : S.BroadcastsInDim SC dC)
    {d0 : Fin S0.rank → Fin SC.rank} (hb0 : S0.BroadcastsInDim SC d0)
    {d1 : Fin S1.rank → Fin S11.rank} (hb1 : S1.BroadcastsInDim S11 d1)
    {d11 : Fin S11.rank → Fin SC.rank} (hb11 : S11.BroadcastsInDim SC d11)
    {axes : List (Fin SC.rank)} (hr : SC.ReducesTo axes S) (hu : 0 < S0.numel)
    {dT : Fin S.rank → Fin T.rank} (hbT : S.BroadcastsInDim T dT)
    {dN : Fin S0.rank → Fin T.rank} (hbN : S0.BroadcastsInDim T dN)
    (d : GatherDims SO SC T) (x : SO.Idx → α) (c : S0.Idx → α) (i : IVec S 32) (n hi : BitVec 32)
    (h : ∀ e, 0 ≤ (i e).toInt ∧ (i e).toInt ≤ hi.toInt) :
    select
        (broadcastInDim T dT hbT
          (Host.reduce IntOp.andi
            (andi
              (cmpi .sge
                (broadcastInDim SC dC hbC
                  (select (cmpi .slt i (broadcastInDim S dS hbS (constantI S0 32 0#32)))
                    (addi i (broadcastInDim S dS hbS (constantI S0 32 n))) i))
                (broadcastInDim SC d0 hb0 (constantI S0 32 0#32)))
              (cmpi .sle
                (broadcastInDim SC dC hbC
                  (select (cmpi .slt i (broadcastInDim S dS hbS (constantI S0 32 0#32)))
                    (addi i (broadcastInDim S dS hbS (constantI S0 32 n))) i))
                (broadcastInDim SC d11 hb11 (broadcastInDim S11 d1 hb1 (constantI S1 32 hi)))))
            (constantI S0 1 1#1) hr hu))
        (Host.gather d x
          (broadcastInDim SC dC hbC
            (select (cmpi .slt i (broadcastInDim S dS hbS (constantI S0 32 0#32)))
              (addi i (broadcastInDim S dS hbS (constantI S0 32 n))) i)))
        (broadcastInDim T dN hbN c)
      = Host.gather d x (broadcastInDim SC dC hbC i) := by
  rw [wrap_id_gen hbS n i fun e => (h e).1]
  funext j
  have hm : broadcastInDim T dT hbT
      (Host.reduce IntOp.andi
        (andi (cmpi .sge (broadcastInDim SC dC hbC i) (broadcastInDim SC d0 hb0 (constantI S0 32 0#32)))
          (cmpi .sle (broadcastInDim SC dC hbC i)
            (broadcastInDim SC d11 hb11 (broadcastInDim S11 d1 hb1 (constantI S1 32 hi)))))
        (constantI S0 1 1#1) hr hu) j = 1#1 := by
    unfold broadcastInDim
    refine Host.reduce_andi_of_all _ _ hr hu rfl (fun k => ?_) _
    exact inrange_bit _ _ (h _).1 (h _).2
  show Scalar.select _ _ _ = _
  rw [hm]; rfl

theorem take_xt (W : Valuation τ sig (Elt F))
    (h : ∀ e : S800000.Idx, 0 ≤ ((W (Proc.devRef .tc main_v3) : IVec S800000 32) e).toInt
      ∧ ((W (Proc.devRef .tc main_v3) : IVec S800000 32) e).toInt < 50000) :
    StableHlo.after hostOps0_1 W (Proc.devRef .tc main_v4)
      = (Host.gather gather_S50000x64_S800000x1_S800000x64_1_0_n_n_0_1_164 (W (Proc.devRef .tc main_arg1))
          (broadcastInDim S800000x1 ![0] bcast_S800000_S800000x1_0 (W (Proc.devRef .tc main_v3))) : FVec F S800000x64 .f32) := by
  have h' : ∀ e : S800000.Idx, 0 ≤ ((W (Proc.devRef .tc main_v3) : IVec S800000 32) e).toInt
      ∧ ((W (Proc.devRef .tc main_v3) : IVec S800000 32) e).toInt ≤ (49999#32 : BitVec 32).toInt := fun e => by
    have e9 : (49999#32 : BitVec 32).toInt = 49999 := by decide
    have := h e
    omega
  show StableHlo.after hostOps0_1 W (Proc.devRef .tc main_v4) = _
  simp (disch := decide) only [after_cons, after_nil,
    nullary_result', unary_result', binary_result', ternary_result',
    nullary_result_ne', unary_result_ne', binary_result_ne', ternary_result_ne',
    TRef.ofBuf, TRef.toBuf, cast_cast, cast_eq]
  exact take_pure bcast_S_S800000 bcast_S800000_S800000x1_0 bcast_S_S800000x1 bcast_S1_S1x1_1 bcast_S1x1_S800000x1_0_1
    reducesTo_S800000x1_S800000_d1 h_S_ bcast_S800000_S800000x64_0 bcast_S_S800000x64
    gather_S50000x64_S800000x1_S800000x64_1_0_n_n_0_1_164 (W (Proc.devRef .tc main_arg1))
    (constant S_ .f32 0x7FC00000#32) (W (Proc.devRef .tc main_v3)) 50000#32 49999#32 h'

theorem take_mean (W : Valuation τ sig (Elt F))
    (h : ∀ e : S800000.Idx, 0 ≤ ((W (Proc.devRef .tc main_v1) : IVec S800000 32) e).toInt
      ∧ ((W (Proc.devRef .tc main_v1) : IVec S800000 32) e).toInt < 50000) :
    StableHlo.after hostOps1_3 W (no_index (Proc.devRef .tc main_v31))
      = (Host.gather gather_S50000x128_S800000x1_S800000x128_1_0_n_n_0_1_1128 (W (Proc.devRef .tc main_v21))
          (broadcastInDim S800000x1 ![0] bcast_S800000_S800000x1_0 (W (Proc.devRef .tc main_v1))) : FVec F S800000x128 .f32) := by
  have h' : ∀ e : S800000.Idx, 0 ≤ ((W (Proc.devRef .tc main_v1) : IVec S800000 32) e).toInt
      ∧ ((W (Proc.devRef .tc main_v1) : IVec S800000 32) e).toInt ≤ (49999#32 : BitVec 32).toInt := fun e => by
    have e9 : (49999#32 : BitVec 32).toInt = 49999 := by decide
    have := h e
    omega
  show StableHlo.after hostOps1_3 W (Proc.devRef .tc main_v31) = _
  simp (disch := decide) only [after_cons, after_nil,
    nullary_result', unary_result', binary_result', ternary_result',
    nullary_result_ne', unary_result_ne', binary_result_ne', ternary_result_ne',
    TRef.ofBuf, TRef.toBuf, cast_cast, cast_eq]
  exact take_pure bcast_S_S800000 bcast_S800000_S800000x1_0 bcast_S_S800000x1 bcast_S1_S1x1_1 bcast_S1x1_S800000x1_0_1
    reducesTo_S800000x1_S800000_d1 h_S_ bcast_S800000_S800000x128_0 bcast_S_S800000x128
    gather_S50000x128_S800000x1_S800000x128_1_0_n_n_0_1_1128 (W (Proc.devRef .tc main_v21))
    (constant S_ .f32 0x7FC00000#32) (W (Proc.devRef .tc main_v1)) 50000#32 49999#32 h'

theorem take_u (W : Valuation τ sig (Elt F))
    (h : ∀ e : S50000.Idx, 0 ≤ ((W (Proc.devRef .tc main_arg5) : IVec S50000 32) e).toInt
      ∧ ((W (Proc.devRef .tc main_arg5) : IVec S50000 32) e).toInt < 8) :
    StableHlo.after hostOps1_10 W (no_index (Proc.devRef .tc main_v59))
      = (Host.gather gather_S8x64_S50000x1_S50000x64_1_0_n_n_0_1_164 (W (Proc.devRef .tc main_arg4))
          (broadcastInDim S50000x1 ![0] bcast_S50000_S50000x1_0 (W (Proc.devRef .tc main_arg5))) : FVec F S50000x64 .f32) := by
  have h' : ∀ e : S50000.Idx, 0 ≤ ((W (Proc.devRef .tc main_arg5) : IVec S50000 32) e).toInt
      ∧ ((W (Proc.devRef .tc main_arg5) : IVec S50000 32) e).toInt ≤ (7#32 : BitVec 32).toInt := fun e => by
    have e9 : (7#32 : BitVec 32).toInt = 7 := by decide
    have := h e
    omega
  show StableHlo.after hostOps1_10 W (Proc.devRef .tc main_v59) = _
  simp (disch := decide) only [after_cons, after_nil,
    nullary_result', unary_result', binary_result', ternary_result',
    nullary_result_ne', unary_result_ne', binary_result_ne', ternary_result_ne',
    TRef.ofBuf, TRef.toBuf, cast_cast, cast_eq]
  exact take_pure bcast_S_S50000 bcast_S50000_S50000x1_0 bcast_S_S50000x1 bcast_S1_S1x1_1 bcast_S1x1_S50000x1_0_1
    reducesTo_S50000x1_S50000_d1 h_S_ bcast_S50000_S50000x64_0 bcast_S_S50000x64
    gather_S8x64_S50000x1_S50000x64_1_0_n_n_0_1_164 (W (Proc.devRef .tc main_arg4))
    (constant S_ .f32 0x7FC00000#32) (W (Proc.devRef .tc main_arg5)) 8#32 7#32 h'

end Cert.KernelIdeal.TakeRows
-- ==== Proof.HostEdge.lean ====
import proofs.«425747_j24756191494619_2_alg».proof.Proof.Gen.KernelIdeal.Regions
import proofs.«425747_j24756191494619_2_alg».proof.Proof.TakeRows
import Idealize.ShloMosaic.Lib.ValueLayout
import Idealize.ShloMosaic.Lib.Pipeline.Value

noncomputable section

namespace Cert.KernelIdeal.HostEdge

open Cert.KernelIdeal Cert.KernelIdeal.Gen Idealize.ShloMosaic Idealize.ShloMosaic.TcCoe Idealize.ShloMosaic.StableHlo

variable {F : FTy → Type} [FloatOps F]
variable (m : (ℓ : Loc nD τ sig) → Buf (Elt F) ℓ)

def rowOf (r : Fin 2 → ℕ) (hs : S2x800000.Slices r S1x800000) (a : IVec S2x800000 32) : IVec S800000 32 :=
  shapeCast S800000 (extractStridedSlice S1x800000 r a hs) shapeCasts_S1x800000_S800000

theorem src_eq (c : Dev nD) :
    (V1 m c (Proc.devRef .tc main_v1) : IVec S800000 32)
      = rowOf ![0, 0] slices_S2x800000_S1x800000_0_0 (m ((c.tc : Thread nD τ).loc main_arg2)) := by
  show StableHlo.after hostOps0 (V0 m c) (Proc.devRef .tc main_v1) = _
  simp (disch := decide) only [after_cons, after_nil, unary_result', reshape_result', unary_result_ne', reshape_result_ne',
    TRef.ofBuf, TRef.toBuf, cast_cast, cast_eq]
  rfl

theorem tgt_eq (c : Dev nD) :
    (V1 m c (Proc.devRef .tc main_v3) : IVec S800000 32)
      = rowOf ![1, 0] slices_S2x800000_S1x800000_1_0 (m ((c.tc : Thread nD τ).loc main_arg2)) := by
  show StableHlo.after hostOps0 (V0 m c) (Proc.devRef .tc main_v3) = _
  simp (disch := decide) only [after_cons, after_nil, unary_result', reshape_result', unary_result_ne', reshape_result_ne',
    TRef.ofBuf, TRef.toBuf, cast_cast, cast_eq]
  rfl

theorem rowOf_zero_apply (a : IVec S2x800000 32) (e : Fin 800000) :
    rowOf ![0, 0] slices_S2x800000_S1x800000_0_0 a (ValueIdx.ix1 e) = a (ValueIdx.ix2 0 e) := by
  unfold rowOf
  rw [ValueIdx.shapeCast_1a_a_apply]
  exact extractStridedSlice_apply _ a _ _ (ValueIdx.ix2 0 e) (fun ax => by
    match ax with
    | ⟨0, _⟩ => rfl
    | ⟨1, _⟩ => exact (Nat.zero_add _).symm)

theorem rowOf_one_apply (a : IVec S2x800000 32) (e : Fin 800000) :
    rowOf ![1, 0] slices_S2x800000_S1x800000_1_0 a (ValueIdx.ix1 e) = a (ValueIdx.ix2 1 e) := by
  unfold rowOf
  rw [ValueIdx.shapeCast_1a_a_apply]
  exact extractStridedSlice_apply _ a _ _ (ValueIdx.ix2 1 e) (fun ax => by
    match ax with
    | ⟨0, _⟩ => rfl
    | ⟨1, _⟩ => exact (Nat.zero_add _).symm)

theorem rowOf_mem (r : Fin 2 → ℕ) (hs : S2x800000.Slices r S1x800000) (a : IVec S2x800000 32) (e : S800000.Idx) :
    ∃ i : S2x800000.Idx, rowOf r hs a e = a i := ⟨_, rfl⟩

theorem tgt_range (c : Dev nD)
    (h : ∀ i : S2x800000.Idx, 0 ≤ ((m ((c.tc : Thread nD τ).loc main_arg2) : IVec S2x800000 32) i).toInt
      ∧ ((m ((c.tc : Thread nD τ).loc main_arg2) : IVec S2x800000 32) i).toInt < 50000) (e : S800000.Idx) :
    0 ≤ ((V1 m c (Proc.devRef .tc main_v3) : IVec S800000 32) e).toInt ∧ ((V1 m c (Proc.devRef .tc main_v3) : IVec S800000 32) e).toInt < 50000 := by
  rw [tgt_eq]; obtain ⟨i, hi⟩ := rowOf_mem ![1, 0] slices_S2x800000_S1x800000_1_0 (m ((c.tc : Thread nD τ).loc main_arg2)) e
  rw [hi]; exact h i

theorem src_range (c : Dev nD)
    (h : ∀ i : S2x800000.Idx, 0 ≤ ((m ((c.tc : Thread nD τ).loc main_arg2) : IVec S2x800000 32) i).toInt
      ∧ ((m ((c.tc : Thread nD τ).loc main_arg2) : IVec S2x800000 32) i).toInt < 50000) (e : S800000.Idx) :
    0 ≤ ((V1 m c (Proc.devRef .tc main_v1) : IVec S800000 32) e).toInt ∧ ((V1 m c (Proc.devRef .tc main_v1) : IVec S800000 32) e).toInt < 50000 := by
  rw [src_eq]; obtain ⟨i, hi⟩ := rowOf_mem ![0, 0] slices_S2x800000_S1x800000_0_0 (m ((c.tc : Thread nD τ).loc main_arg2)) e
  rw [hi]; exact h i

theorem xt_eq (c : Dev nD)
    (h : ∀ i : S2x800000.Idx, 0 ≤ ((m ((c.tc : Thread nD τ).loc main_arg2) : IVec S2x800000 32) i).toInt
      ∧ ((m ((c.tc : Thread nD τ).loc main_arg2) : IVec S2x800000 32) i).toInt < 50000) :
    (V3 m c (Proc.devRef .tc main_v4) : FVec F S800000x64 .f32)
      = Host.gather gather_S50000x64_S800000x1_S800000x64_1_0_n_n_0_1_164 (m ((c.tc : Thread nD τ).loc main_arg1))
          (broadcastInDim S800000x1 ![0] bcast_S800000_S800000x1_0
            (rowOf ![1, 0] slices_S2x800000_S1x800000_1_0 (m ((c.tc : Thread nD τ).loc main_arg2)))) := by
  rw [V3_of m c main_v4 (by decide)]
  show StableHlo.after hostOps0_1 (V1 m c) (Proc.devRef .tc main_v4) = _
  rw [TakeRows.take_xt (V1 m c) (tgt_range m c h), tgt_eq, V1_of m c main_arg1 (by decide)]

end Cert.KernelIdeal.HostEdge

end
-- ==== Proof.Spec.lean ====
import Idealize.ShloMosaic.PureOps.Ideal
import Idealize.ShloMosaic.Lib.ValueIdx
import Mathlib.Algebra.BigOperators.Fin

noncomputable section

namespace Cert.Spec

open Idealize.ShloMosaic

def lrelu (h : EReal) : EReal :=
  Scalar.select (FloatOps.cmpf (F := Ideal) (φ := .f32) .oge h (Ideal.ofBits .f32 0x00000000#32)) h (Ideal.ofBits .f32 0x3DCCCCCD#32 * h)

def edgeRow (xt ea : Fin 64 → EReal) (w1 : Fin 128 → Fin 128 → EReal) (b1 : Fin 128 → EReal) (w2 : Fin 128 → Fin 128 → EReal)
    (b2 : Fin 128 → EReal) (q : Fin 128) : EReal :=
  (∑ k : Fin 128, lrelu ((∑ k' : Fin 128, Fin.append xt ea k' * w1 k' k) + b1 k) * w2 k q) + b2 q

theorem edge_contract_split (xt ea : Fin 64 → EReal) (w : Fin 128 → EReal) :
    (∑ k' : Fin 128, Fin.append xt ea k' * w k')
      = (∑ i : Fin 64, xt i * w (Fin.castAdd 64 i)) + ∑ i : Fin 64, ea i * w (Fin.natAdd 64 i) := by
  rw [Fin.sum_univ_add (f := fun k' : Fin (64 + 64) => Fin.append xt ea k' * w k')]
  simp only [Fin.append_left, Fin.append_right]

def nodeFeatures (xs : Fin 128 → EReal) (cnt : EReal) (mean std skew kurt : Fin 128 → EReal) (ub : Fin 64 → EReal) :
    Fin (128 + (1 + (128 + (128 + (128 + (128 + 64)))))) → EReal :=
  Fin.append xs (Fin.append (fun _ : Fin 1 => cnt) (Fin.append mean (Fin.append std (Fin.append skew (Fin.append kurt ub)))))

def nodeRow (xs : Fin 128 → EReal) (cnt : EReal) (mean std skew kurt : Fin 128 → EReal) (ub : Fin 64 → EReal)
    (w : Fin 705 → Fin 128 → EReal) (b : Fin 128 → EReal) (w2 : Fin 128 → Fin 128 → EReal) (b2 : Fin 128 → EReal) (q : Fin 128) : EReal :=
  (∑ k : Fin 128, lrelu ((∑ k' : Fin 705, nodeFeatures xs cnt mean std skew kurt ub k' * w k' k) + b k) * w2 k q) + b2 q

theorem node_contract_split (xs : Fin 128 → EReal) (cnt : EReal) (mean std skew kurt : Fin 128 → EReal) (ub : Fin 64 → EReal)
    (w : Fin 705 → EReal) :
    (∑ k' : Fin 705, nodeFeatures xs cnt mean std skew kurt ub k' * w k')
      = (((((∑ i : Fin 128, xs i * w ⟨i.val, by omega⟩) + ∑ i : Fin 128, mean i * w ⟨129 + i.val, by omega⟩)
            + ∑ i : Fin 128, std i * w ⟨257 + i.val, by omega⟩) + ∑ i : Fin 128, skew i * w ⟨385 + i.val, by omega⟩)
            + ∑ i : Fin 128, kurt i * w ⟨513 + i.val, by omega⟩) + (∑ i : Fin 64, ub i * w ⟨641 + i.val, by omega⟩)
          + cnt * w ⟨128, by omega⟩ := by
  unfold nodeFeatures
  rw [Fin.sum_univ_add (f := fun k' : Fin (128 + (1 + (128 + (128 + (128 + (128 + 64)))))) => _ * w k')]
  simp only [Fin.append_left, Fin.append_right]
  rw [Fin.sum_univ_add (f := fun k' : Fin (1 + (128 + (128 + (128 + (128 + 64))))) => _)]
  simp only [Fin.append_left, Fin.append_right]
  rw [Fin.sum_univ_add (f := fun k' : Fin (128 + (128 + (128 + (128 + 64)))) => _)]
  simp only [Fin.append_left, Fin.append_right]
  rw [Fin.sum_univ_add (f := fun k' : Fin (128 + (128 + (128 + 64))) => _)]
  simp only [Fin.append_left, Fin.append_right]
  rw [Fin.sum_univ_add (f := fun k' : Fin (128 + (128 + 64)) => _)]
  simp only [Fin.append_left, Fin.append_right]
  rw [Fin.sum_univ_add (f := fun k' : Fin (128 + 64) => _)]
  simp only [Fin.append_left, Fin.append_right, Fin.sum_univ_one]
  simp only [Fin.natAdd, Fin.castAdd, Fin.castLE, Fin.val_zero, Fin.isValue, ← Nat.add_assoc, Nat.reduceAdd, Nat.add_zero]
  ac_rfl

end Cert.Spec

end
-- ==== Proof.LibMatmulPlain.lean ====
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

theorem contr_rank (hlc : d.lhsContracting = [1]) : d.contr.rank = 1 := by
  rw [d.rank_contr, hlc]; rfl

theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- A plain product's operand indices at output `(p, q)` and contraction index `k` are `(p, k)` and `(k, q)`. -/
theorem sum_plain {α : Type} [AddCommMonoid α] (hlc : d.lhsContracting = [1]) (hrc : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (q : Fin N) :
    (∑ k : d.contr.Idx, f (d.lhsIdx (ix2 p q) k) (d.rhsIdx (ix2 p q) k)) = ∑ k : Fin K, f (ix2 p k) (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  congr 1 <;> funext a <;> apply Fin.ext
  · match a with
    | ⟨0, _⟩ => exact lhs_0 d hln hlb _ _
    | ⟨1, _⟩ => exact (lhs_1 d hlc _ _).trans hk
  · match a with
    | ⟨0, _⟩ => exact (rhs_0 d hlc hrc _ _).trans hk
    | ⟨1, _⟩ => exact rhs_1 d hrn hln hlb hrb _ _

theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) :=
  (Ideal.matmul_constant_zero_apply d prec l r (ix2 p q)).trans (sum_plain d hlc hrc hln hrn hlb hrb (fun i j => l i * r j) p q)

end Cert.Lib.MatmulPlain

end
-- ==== Proof.NodeValue.lean ====
import proofs.«425747_j24756191494619_2_alg».proof.Proof.Launch
import proofs.«425747_j24756191494619_2_alg».proof.Proof.NodeRegion
import proofs.«425747_j24756191494619_2_alg».proof.Proof.Spec
import proofs.«425747_j24756191494619_2_alg».proof.Proof.LibMatmulPlain
import Idealize.ShloMosaic.Lib.Pipeline.Value
import Idealize.ShloMosaic.Lib.ValueIdx
import Idealize.ShloMosaic.Lib.ValueLayout

noncomputable section

namespace Cert.KernelIdeal.NodeValue

open Cert.KernelIdeal Cert.KernelIdeal.Gen Cert.KernelIdeal.Launched
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

theorem mm128_apply (l : FVec Ideal S2000x128 .bf16) (r : FVec Ideal S128x128 .bf16) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) :=
  Cert.Lib.MatmulPlain.matmul_zero_apply dot_S2000x128_S128x128_S2000x128_1_0_0_1_n_n rfl rfl rfl rfl rfl rfl none l r p q

theorem mm64_apply (l : FVec Ideal S2000x64 .bf16) (r : FVec Ideal S64x128 .bf16) (p : Fin 2000) (q : Fin 128) :
    matmul dot_S2000x64_S64x128_S2000x128_1_0_0_1_n_n none l r (constant (F := Ideal) S2000x128 .f32 0x00000000#32) (ix2 p q)
      = ∑ k : Fin 64, l (ix2 p k) * r (ix2 k q) :=
  Cert.Lib.MatmulPlain.matmul_zero_apply dot_S2000x64_S64x128_S2000x128_1_0_0_1_n_n rfl rfl rfl rfl rfl rfl none l r p q

theorem bcastCol_apply {α : Type} (v : S2000x1.Idx → α) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ => rfl
  | ⟨1, _⟩ => rfl

theorem bcastRow_apply {α : Type} (v : S1x128.Idx → α) (p : Fin 2000) (q : Fin 128) :
    broadcastTo S2000x128 v broadcasts_S1x128_S2000x128 (ix2 p q) = v (ix2 (0 : Fin 1) q) :=
  broadcastTo_1b_ab_apply v broadcasts_S1x128_S2000x128 p q

/-- Row `n`, column `q` of the second layer over the rectified first-layer sums, for arrays of `R` rows. -/
def rowAt {R : Nat} (a0 : FVec Ideal ⟨2, ![R, 128]⟩ .f32) (a1 : FVec Ideal ⟨2, ![R, 1]⟩ .f32) (a2 a3 a4 a5 : FVec Ideal ⟨2, ![R, 128]⟩ .f32) (a6 : FVec Ideal ⟨2, ![R, 64]⟩ .f32) (a7 : FVec Ideal S128x128 .f32) (a8 : FVec Ideal S1x128 .f32) (a9 a10 a11 a12 : FVec Ideal S128x128 .f32) (a13 : FVec Ideal S64x128 .f32) (a14 : FVec Ideal S1x128 .f32) (a15 : FVec Ideal S128x128 .f32) (a16 : FVec Ideal S1x128 .f32) (n : Fin R) (q : Fin 128) : EReal :=
  (∑ k : Fin 128, Cert.Spec.lrelu ((((((((∑ i : Fin 128, a0 (ix2 n i) * a7 (ix2 i k)) + ∑ i : Fin 128, a2 (ix2 n i) * a9 (ix2 i k))
    + ∑ i : Fin 128, a3 (ix2 n i) * a10 (ix2 i k)) + ∑ i : Fin 128, a4 (ix2 n i) * a11 (ix2 i k))
    + ∑ i : Fin 128, a5 (ix2 n i) * a12 (ix2 i k)) + ∑ i : Fin 64, a6 (ix2 n i) * a13 (ix2 i k))
    + a1 (ix2 n (0 : Fin 1)) * a8 (ix2 (0 : Fin 1) k)) + a14 (ix2 (0 : Fin 1) k)) * a15 (ix2 k q)) + a16 (ix2 (0 : Fin 1) q)

theorem out_at (x0 : Vec Ideal S2000x128 .f32) (x1 : Vec Ideal S2000x1 .f32) (x2 : Vec Ideal S2000x128 .f32) (x3 : Vec Ideal S2000x128 .f32) (x4 : Vec Ideal S2000x128 .f32) (x5 : Vec Ideal S2000x128 .f32) (x6 : Vec Ideal S2000x64 .f32) (x7 : Vec Ideal S128x128 .f32) (x8 : Vec Ideal S1x128 .f32) (x9 : Vec Ideal S128x128 .f32) (x10 : Vec Ideal S128x128 .f32) (x11 : Vec Ideal S128x128 .f32) (x12 : Vec Ideal S128x128 .f32) (x13 : Vec Ideal S64x128 .f32) (x14 : Vec Ideal S1x128 .f32) (x15 : Vec Ideal S128x128 .f32) (x16 : Vec Ideal S1x128 .f32) (p : Fin 2000) (q : Fin 128) :
    (NodeMlp.out (F := Ideal) x0 x1 x2 x3 x4 x5 x6 x7 x8 x9 x10 x11 x12 x13 x14 x15 x16 : FVec Ideal S2000x128 .f32) (ix2 p q) = rowAt (R := 2000) x0 x1 x2 x3 x4 x5 x6 x7 x8 x9 x10 x11 x12 x13 x14 x15 x16 p q := by
  unfold NodeMlp.out rowAt
  rw [View.canon_unit_zero hz]
  simp only [View.ld_unit_zero (S := S2000x128) hz, View.ld_unit_zero (S := S2000x1) hz, View.ld_unit_zero (S := S2000x64) hz,
    View.ld_unit_zero (S := S128x128) hz, View.ld_unit_zero (S := S1x128) hz, View.ld_unit_zero (S := S64x128) hz]
  unfold k1_pay14 k1_pay13 k1_pay1 k1_pay2 k1_pay3 k1_pay4 k1_pay5 k1_pay6 k1_pay7 k1_pay8 k1_pay9 k1_pay10 k1_pay11 k1_pay12
  simp only [shapeCast_self, addf_apply, mulf_apply, mm128_apply, mm64_apply, bcastCol_apply, bcastRow_apply, truncf_apply,
    select_apply, cmpf_apply, broadcast_apply]
  rfl

theorem idx_facts : ∀ t : Fin cfg1.N, ∀ w : Fin 18, ∀ a : Fin (win1 w).shape.rank,
    (win1 w).index t a = if a.val = 0 ∧ (w.val < 7 ∨ w.val = 17) then t.val else 0 :=
  (by decide +kernel : ∀ t : Fin grid1.N, _)

/-- Indices with equal coordinates are equal. -/
theorem idx_ext {s : Shape} {x k : s.Idx} (h : ∀ a, (x a).val = (k a).val) : x = k :=
  funext fun a => Fin.ext (h a)

/-- Row `p` of block `t` of blocks of `b` rows is row `b t + p`. -/
theorem row_eq {ix b t p n : Nat} (h : ix = t) (hn : n = b * t + p) : ix * b + 1 * p = n := by
  subst h hn; rw [Nat.one_mul, Nat.mul_comm]

/-- Block `0` starts at `0`. -/
theorem col_eq {ix b i : Nat} (h : ix = 0) : ix * b + 1 * i = i := by
  subst h; rw [Nat.zero_mul, Nat.zero_add, Nat.one_mul]

section Blocks
variable (V : (c : Dev nD) → (b : Ref sig .tc) → Buf (Elt Ideal) ((c : Thread nD τ).loc b))

theorem iblk_0_apply (c : Dev nD) (t : Fin cfg1.N) (p : Fin 2000) (n : Fin 50000) (hn : n.val = 2000 * t.val + p.val) (i : Fin 128) :
    (NodeMlp.iblk V c 0 t : Vec Ideal S2000x128 .f32) (ix2 p i) = V c main_arg0 (ix2 n i) := by
  unfold NodeMlp.iblk
  rw [View.read_apply]
  exact congrArg (V c main_arg0) (idx_ext (Fin.forall_fin_two.2 ⟨row_eq (idx_facts t 0 (0 : Fin 2)) hn, col_eq (idx_facts t 0 (1 : Fin 2))⟩))

theorem iblk_1_apply (c : Dev nD) (t : Fin cfg1.N) (p : Fin 2000) (n : Fin 50000) (hn : n.val = 2000 * t.val + p.val) (i : Fin 1) :
    (NodeMlp.iblk V c 1 t : Vec Ideal S2000x1 .f32) (ix2 p i) = V c main_v16 (ix2 n i) := by
  unfold NodeMlp.iblk
  rw [View.read_apply]
  exact congrArg (V c main_v16) (idx_ext (Fin.forall_fin_two.2 ⟨row_eq (idx_facts t 1 (0 : Fin 2)) hn, col_eq (idx_facts t 1 (1 : Fin 2))⟩))

theorem iblk_2_apply (c : Dev nD) (t : Fin cfg1.N) (p : Fin 2000) (n : Fin 50000) (hn : n.val = 2000 * t.val + p.val) (i : Fin 128) :
    (NodeMlp.iblk V c 2 t : Vec Ideal S2000x128 .f32) (ix2 p i) = V c main_v52 (ix2 n i) := by
  unfold NodeMlp.iblk
  rw [View.read_apply]
  exact congrArg (V c main_v52) (idx_ext (Fin.forall_fin_two.2 ⟨row_eq (idx_facts t 2 (0 : Fin 2)) hn, col_eq (idx_facts t 2 (1 : Fin 2))⟩))

theorem iblk_3_apply (c : Dev nD) (t : Fin cfg1.N) (p : Fin 2000) (n : Fin 50000) (hn : n.val = 2000 * t.val + p.val) (i : Fin 128) :
    (NodeMlp.iblk V c 3 t : Vec Ideal S2000x128 .f32) (ix2 p i) = V c main_v56 (ix2 n i) := by
  unfold NodeMlp.iblk
  rw [View.read_apply]
  exact congrArg (V c main_v56) (idx_ext (Fin.forall_fin_two.2 ⟨row_eq (idx_facts t 3 (0 : Fin 2)) hn, col_eq (idx_facts t 3 (1 : Fin 2))⟩))

theorem iblk_4_apply (c : Dev nD) (t : Fin cfg1.N) (p : Fin 2000) (n : Fin 50000) (hn : n.val = 2000 * t.val + p.val) (i : Fin 128) :
    (NodeMlp.iblk V c 4 t : Vec Ideal S2000x128 .f32) (ix2 p i) = V c main_v57 (ix2 n i) := by
  unfold NodeMlp.iblk
  rw [View.read_apply]
  exact congrArg (V c main_v57) (idx_ext (Fin.forall_fin_two.2 ⟨row_eq (idx_facts t 4 (0 : Fin 2)) hn, col_eq (idx_facts t 4 (1 : Fin 2))⟩))

theorem iblk_5_apply (c : Dev nD) (t : Fin cfg1.N) (p : Fin 2000) (n : Fin 50000) (hn : n.val = 2000 * t.val + p.val) (i : Fin 128) :
    (NodeMlp.iblk V c 5 t : Vec Ideal S2000x128 .f32) (ix2 p i) = V c main_v58 (ix2 n i) := by
  unfold NodeMlp.iblk
  rw [View.read_apply]
  exact congrArg (V c main_v58) (idx_ext (Fin.forall_fin_two.2 ⟨row_eq (idx_facts t 5 (0 : Fin 2)) hn, col_eq (idx_facts t 5 (1 : Fin 2))⟩))

theorem iblk_6_apply (c : Dev nD) (t : Fin cfg1.N) (p : Fin 2000) (n : Fin 50000) (hn : n.val = 2000 * t.val + p.val) (i : Fin 64) :
    (NodeMlp.iblk V c 6 t : Vec Ideal S2000x64 .f32) (ix2 p i) = V c main_v59 (ix2 n i) := by
  unfold NodeMlp.iblk
  rw [View.read_apply]
  exact congrArg (V c main_v59) (idx_ext (Fin.forall_fin_two.2 ⟨row_eq (idx_facts t 6 (0 : Fin 2)) hn, col_eq (idx_facts t 6 (1 : Fin 2))⟩))

theorem iblk_7_eq (c : Dev nD) (t : Fin cfg1.N) :
    (NodeMlp.iblk V c 7 t : Vec Ideal S128x128 .f32) = V c main_v60 := by
  funext j
  unfold NodeMlp.iblk
  rw [View.read_apply]
  exact congrArg (V c main_v60) (idx_ext (Fin.forall_fin_two.2 ⟨col_eq (idx_facts t 7 (0 : Fin 2)), col_eq (idx_facts t 7 (1 : Fin 2))⟩))

theorem iblk_8_eq (c : Dev nD) (t : Fin cfg1.N) :
    (NodeMlp.iblk V c 8 t : Vec Ideal S1x128 .f32) = V c main_v61 := by
  funext j
  unfold NodeMlp.iblk
  rw [View.read_apply]
  exact congrArg (V c main_v61) (idx_ext (Fin.forall_fin_two.2 ⟨col_eq (idx_facts t 8 (0 : Fin 2)), col_eq (idx_facts t 8 (1 : Fin 2))⟩))

theorem iblk_9_eq (c : Dev nD) (t : Fin cfg1.N) :
    (NodeMlp.iblk V c 9 t : Vec Ideal S128x128 .f32) = V c main_v62 := by
  funext j
  unfold NodeMlp.iblk
  rw [View.read_apply]
  exact congrArg (V c main_v62) (idx_ext (Fin.forall_fin_two.2 ⟨col_eq (idx_facts t 9 (0 : Fin 2)), col_eq (idx_facts t 9 (1 : Fin 2))⟩))

theorem iblk_10_eq (c : Dev nD) (t : Fin cfg1.N) :
    (NodeMlp.iblk V c 10 t : Vec Ideal S128x128 .f32) = V c main_v63 := by
  funext j
  unfold NodeMlp.iblk
  rw [View.read_apply]
  exact congrArg (V c main_v63) (idx_ext (Fin.forall_fin_two.2 ⟨col_eq (idx_facts t 10 (0 : Fin 2)), col_eq (idx_facts t 10 (1 : Fin 2))⟩))

theorem iblk_11_eq (c : Dev nD) (t : Fin cfg1.N) :
    (NodeMlp.iblk V c 11 t : Vec Ideal S128x128 .f32) = V c main_v64 := by
  funext j
  unfold NodeMlp.iblk
  rw [View.read_apply]
  exact congrArg (V c main_v64) (idx_ext (Fin.forall_fin_two.2 ⟨col_eq (idx_facts t 11 (0 : Fin 2)), col_eq (idx_facts t 11 (1 : Fin 2))⟩))

theorem iblk_12_eq (c : Dev nD) (t : Fin cfg1.N) :
    (NodeMlp.iblk V c 12 t : Vec Ideal S128x128 .f32) = V c main_v65 := by
  funext j
  unfold NodeMlp.iblk
  rw [View.read_apply]
  exact congrArg (V c main_v65) (idx_ext (Fin.forall_fin_two.2 ⟨col_eq (idx_facts t 12 (0 : Fin 2)), col_eq (idx_facts t 12 (1 : Fin 2))⟩))

theorem iblk_13_eq (c : Dev nD) (t : Fin cfg1.N) :
    (NodeMlp.iblk V c 13 t : Vec Ideal S64x128 .f32) = V c main_v66 := by
  funext j
  unfold NodeMlp.iblk
  rw [View.read_apply]
  exact congrArg (V c main_v66) (idx_ext (Fin.forall_fin_two.2 ⟨col_eq (idx_facts t 13 (0 : Fin 2)), col_eq (idx_facts t 13 (1 : Fin 2))⟩))

theorem iblk_14_eq (c : Dev nD) (t : Fin cfg1.N) :
    (NodeMlp.iblk V c 14 t : Vec Ideal S1x128 .f32) = V c main_v67 := by
  funext j
  unfold NodeMlp.iblk
  rw [View.read_apply]
  exact congrArg (V c main_v67) (idx_ext (Fin.forall_fin_two.2 ⟨col_eq (idx_facts t 14 (0 : Fin 2)), col_eq (idx_facts t 14 (1 : Fin 2))⟩))

theorem iblk_15_eq (c : Dev nD) (t : Fin cfg1.N) :
    (NodeMlp.iblk V c 15 t : Vec Ideal S128x128 .f32) = V c main_arg12 := by
  funext j
  unfold NodeMlp.iblk
  rw [View.read_apply]
  exact congrArg (V c main_arg12) (idx_ext (Fin.forall_fin_two.2 ⟨col_eq (idx_facts t 15 (0 : Fin 2)), col_eq (idx_facts t 15 (1 : Fin 2))⟩))

theorem iblk_16_eq (c : Dev nD) (t : Fin cfg1.N) :
    (NodeMlp.iblk V c 16 t : Vec Ideal S1x128 .f32) = V c main_v68 := by
  funext j
  unfold NodeMlp.iblk
  rw [View.read_apply]
  exact congrArg (V c main_v68) (idx_ext (Fin.forall_fin_two.2 ⟨col_eq (idx_facts t 16 (0 : Fin 2)), col_eq (idx_facts t 16 (1 : Fin 2))⟩))

end Blocks

section Array
variable (m : (ℓ : Loc nD τ sig) → Buf (Elt Ideal) ℓ) (c : Dev nD)

def G : FVec Ideal S50000x128 .f32 := fun j =>
  rowAt (R := 50000) (VN (F := Ideal) m c main_arg0) (VN (F := Ideal) m c main_v16) (VN (F := Ideal) m c main_v52) (VN (F := Ideal) m c main_v56) (VN (F := Ideal) m c main_v57) (VN (F := Ideal) m c main_v58) (VN (F := Ideal) m c main_v59) (VN (F := Ideal) m c main_v60) (VN (F := Ideal) m c main_v61) (VN (F := Ideal) m c main_v62) (VN (F := Ideal) m c main_v63) (VN (F := Ideal) m c main_v64) (VN (F := Ideal) m c main_v65) (VN (F := Ideal) m c main_v66) (VN (F := Ideal) m c main_v67) (VN (F := Ideal) m c main_arg12) (VN (F := Ideal) m c main_v68) (j 0) (j 1)

theorem flushed_eq (t : Fin cfg1.N) :
    (NodeMlp.dat (VN m) c).flushed 17 t = ((cfg1.win 17).blk t).view.read (Elt Ideal) (G m c) := by
  show (cfg1.win 17).cut (grid1.coords t) ((NodeMlp.dat (VN m) c).after 17 t) = _
  rw [NodeMlp.after_out]
  funext j
  obtain ⟨p, q, rfl⟩ : ∃ (p : Fin 2000) (q : Fin 128), j = ix2 p q := ⟨j 0, j 1, eq_ix2 j⟩
  have hN : t.val < 25 := lt_of_lt_of_eq t.isLt (show cfg1.N = 25 from N_1)
  have hlt : 2000 * t.val + p.val < 50000 := by have := p.isLt; omega
  refine (out_at _ _ _ _ _ _ _ _ _ _ _ _ _ _ _ _ _ p q).trans ?_
  show _ = G m c (((cfg1.win 17).blk t).view.emb (ix2 p q))
  rw [show ((cfg1.win 17).blk t).view.emb (ix2 p q) = (ix2 ⟨_, hlt⟩ q : S50000x128.Idx) from
    idx_ext (Fin.forall_fin_two.2 ⟨row_eq (idx_facts t 17 (0 : Fin 2)) rfl, col_eq (idx_facts t 17 (1 : Fin 2))⟩)]
  unfold G rowAt
  simp only [iblk_0_apply (VN m) c t p ⟨_, hlt⟩ rfl, iblk_1_apply (VN m) c t p ⟨_, hlt⟩ rfl, iblk_2_apply (VN m) c t p ⟨_, hlt⟩ rfl, iblk_3_apply (VN m) c t p ⟨_, hlt⟩ rfl, iblk_4_apply (VN m) c t p ⟨_, hlt⟩ rfl, iblk_5_apply (VN m) c t p ⟨_, hlt⟩ rfl, iblk_6_apply (VN m) c t p ⟨_, hlt⟩ rfl,
    iblk_7_eq (VN m) c t, iblk_8_eq (VN m) c t, iblk_9_eq (VN m) c t, iblk_10_eq (VN m) c t, iblk_11_eq (VN m) c t, iblk_12_eq (VN m) c t, iblk_13_eq (VN m) c t, iblk_14_eq (VN m) c t, iblk_15_eq (VN m) c t, iblk_16_eq (VN m) c t]

theorem mem_blk (t : Fin cfg1.N) (i : S50000x128.Idx) :
    i ∈ ((cfg1.win 17).blk t).view.set ↔ ∀ a : Fin 2, win1_17.index t a * S2000x128.size a ≤ (i a).val ∧ (i a).val < win1_17.index t a * S2000x128.size a + S2000x128.size a := by
  show i ∈ ((View.whole main_v69).slice (win1_17.rect t)).set ↔ _
  rw [View.set_slice_whole, Rect.mem_set_unit]
  exact Iff.rfl

theorem cover (i : S50000x128.Idx) : ∃ t : Fin cfg1.N, (cfg1.win 17).flush t = true ∧ i ∈ ((cfg1.win 17).blk t).view.set := by
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [show cfg1.N = 25 from N_1]; omega⟩, rfl⟩
  refine ⟨t, flush1_17 t, ?_⟩
  rw [mem_blk]
  intro a
  match a with
  | ⟨0, _⟩ => show win1_17.index t (0 : Fin 2) * 2000 ≤ (i 0).val ∧ (i 0).val < win1_17.index t (0 : Fin 2) * 2000 + 2000; rw [show win1_17.index t (0 : Fin 2) = t.val from idx_facts t 17 (0 : Fin 2), ht]; omega
  | ⟨1, _⟩ => show win1_17.index t (1 : Fin 2) * 128 ≤ (i 1).val ∧ (i 1).val < win1_17.index t (1 : Fin 2) * 128 + 128; rw [show win1_17.index t (1 : Fin 2) = 0 from idx_facts t 17 (1 : Fin 2)]; omega

theorem nodeOut_eq : nodeOut (F := Ideal) m c = G m c := by
  unfold nodeOut
  exact (NodeMlp.dat (VN m) c).arrAt_eq_of_cover 17 (G m c) (fun t _ => flushed_eq m c t) cover

theorem W_arg0 : VN (F := Ideal) m c main_arg0 = m ((c.tc : Thread nD τ).loc main_arg0) :=
  (V17_of m (outsE m) c main_arg0 (by decide)).symm.trans (V17_main_arg0 m (outsE m) c)

theorem W_arg12 : VN (F := Ideal) m c main_arg12 = m ((c.tc : Thread nD τ).loc main_arg12) :=
  (V17_of m (outsE m) c main_arg12 (by decide)).symm.trans (V17_main_arg12 m (outsE m) c)

theorem V15_arg10 : V15 m (outsE m) c main_arg10 = m ((c.tc : Thread nD τ).loc main_arg10) :=
  (V16_of m (outsE m) c main_arg10 (by decide)).symm.trans ((V17_of m (outsE m) c main_arg10 (by decide)).symm.trans (V17_main_arg10 m (outsE m) c))

theorem V15_arg11 : V15 m (outsE m) c main_arg11 = m ((c.tc : Thread nD τ).loc main_arg11) :=
  (V16_of m (outsE m) c main_arg11 (by decide)).symm.trans ((V17_of m (outsE m) c main_arg11 (by decide)).symm.trans (V17_main_arg11 m (outsE m) c))

theorem V15_arg13 : V15 m (outsE m) c main_arg13 = m ((c.tc : Thread nD τ).loc main_arg13) :=
  (V16_of m (outsE m) c main_arg13 (by decide)).symm.trans ((V17_of m (outsE m) c main_arg13 (by decide)).symm.trans (V17_main_arg13 m (outsE m) c))

/-- Rows `o …` of a matrix read it at `(o + i, k)`. -/
theorem slice_apply {R o : Nat} {sl : (⟨2, ![705, 128]⟩ : Shape).Slices ![o, 0] ⟨2, ![R, 128]⟩} (A : FVec Ideal ⟨2, ![R, 128]⟩ .f32) (B B' : FVec Ideal S705x128 .f32)
    (h : A = extractStridedSlice ⟨2, ![R, 128]⟩ ![o, 0] B sl) (hB : B = B') (ho : o + R ≤ 705) (i : Fin R) (k : Fin 128) :
    A (ix2 i k) = B' (ix2 ⟨o + i.val, by have := i.isLt; omega⟩ k) := by
  subst h hB
  exact slice2_axis0_apply o _ sl i k _ rfl

/-- A vector as one row reads it at the column. -/
theorem bias_apply (A : FVec Ideal S1x128 .f32) (B B' : FVec Ideal S128 .f32) (h : A = shapeCast S1x128 B shapeCasts_S128_S1x128) (hB : B = B') (k : Fin 128) :
    A (ix2 (0 : Fin 1) k) = B' (ix1 k) := by
  subst h hB
  exact shapeCast_a_1a_apply _ shapeCasts_S128_S1x128 0 k

theorem after_main_v60 (X : Valuation τ sig (Elt Ideal)) : StableHlo.after hostOps1_11 X (main_v60 : DevRef τ sig)
    = extractStridedSlice S128x128 ![0, 0] (X (main_arg10 : DevRef τ sig)) slices_S705x128_S128x128_0_0 := by
  after_results

theorem after_main_v61 (X : Valuation τ sig (Elt Ideal)) : StableHlo.after hostOps1_11 X (main_v61 : DevRef τ sig)
    = extractStridedSlice S1x128 ![128, 0] (X (main_arg10 : DevRef τ sig)) slices_S705x128_S1x128_128_0 := by
  after_results

theorem after_main_v62 (X : Valuation τ sig (Elt Ideal)) : StableHlo.after hostOps1_11 X (main_v62 : DevRef τ sig)
    = extractStridedSlice S128x128 ![129, 0] (X (main_arg10 : DevRef τ sig)) slices_S705x128_S128x128_129_0 := by
  after_results

theorem after_main_v63 (X : Valuation τ sig (Elt Ideal)) : StableHlo.after hostOps1_11 X (main_v63 : DevRef τ sig)
    = extractStridedSlice S128x128 ![257, 0] (X (main_arg10 : DevRef τ sig)) slices_S705x128_S128x128_257_0 := by
  after_results

theorem after_main_v64 (X : Valuation τ sig (Elt Ideal)) : StableHlo.after hostOps1_11 X (main_v64 : DevRef τ sig)
    = extractStridedSlice S128x128 ![385, 0] (X (main_arg10 : DevRef τ sig)) slices_S705x128_S128x128_385_0 := by
  after_results

theorem after_main_v65 (X : Valuation τ sig (Elt Ideal)) : StableHlo.after hostOps1_11 X (main_v65 : DevRef τ sig)
    = extractStridedSlice S128x128 ![513, 0] (X (main_arg10 : DevRef τ sig)) slices_S705x128_S128x128_513_0 := by
  after_results

theorem after_main_v66 (X : Valuation τ sig (Elt Ideal)) : StableHlo.after hostOps1_11 X (main_v66 : DevRef τ sig)
    = extractStridedSlice S64x128 ![641, 0] (X (main_arg10 : DevRef τ sig)) slices_S705x128_S64x128_641_0 := by
  after_results

theorem after_main_v67 (X : Valuation τ sig (Elt Ideal)) : StableHlo.after hostOps1_11 X (main_v67 : DevRef τ sig)
    = shapeCast S1x128 (X (main_arg11 : DevRef τ sig)) shapeCasts_S128_S1x128 := by
  after_results
  rfl

theorem after_main_v68 (X : Valuation τ sig (Elt Ideal)) : StableHlo.after hostOps1_11 X (main_v68 : DevRef τ sig)
    = shapeCast S1x128 (X (main_arg13 : DevRef τ sig)) shapeCasts_S128_S1x128 := by
  after_results
  rfl

end Array

theorem out_apply (m : (ℓ : Loc nD τ sig) → Buf (Elt Ideal) ℓ) (c : Dev nD) (n : Fin 50000) (q : Fin 128) :
    (nodeOut (F := Ideal) m c : FVec Ideal S50000x128 .f32) (ix2 n q)
      = Cert.Spec.nodeRow (fun i => (m ((c.tc : Thread nD τ).loc main_arg0) : FVec Ideal S50000x128 .f32) (ix2 n i))
          ((V16 m (outsE m) c (Proc.devRef .tc main_v16) : FVec Ideal S50000x1 .f32) (ix2 n (0 : Fin 1)))
          (fun i => (V16 m (outsE m) c (Proc.devRef .tc main_v52) : FVec Ideal S50000x128 .f32) (ix2 n i))
          (fun i => (V16 m (outsE m) c (Proc.devRef .tc main_v56) : FVec Ideal S50000x128 .f32) (ix2 n i))
          (fun i => (V16 m (outsE m) c (Proc.devRef .tc main_v57) : FVec Ideal S50000x128 .f32) (ix2 n i))
          (fun i => (V16 m (outsE m) c (Proc.devRef .tc main_v58) : FVec Ideal S50000x128 .f32) (ix2 n i))
          (fun i => (V16 m (outsE m) c (Proc.devRef .tc main_v59) : FVec Ideal S50000x64 .f32) (ix2 n i))
          (fun k' k => (m ((c.tc : Thread nD τ).loc main_arg10) : FVec Ideal S705x128 .f32) (ix2 k' k))
          (fun k => (m ((c.tc : Thread nD τ).loc main_arg11) : FVec Ideal S128 .f32) (ix1 k))
          (fun k q' => (m ((c.tc : Thread nD τ).loc main_arg12) : FVec Ideal S128x128 .f32) (ix2 k q'))
          (fun q' => (m ((c.tc : Thread nD τ).loc main_arg13) : FVec Ideal S128 .f32) (ix1 q')) q := by
  rw [nodeOut_eq]
  unfold G rowAt Cert.Spec.nodeRow
  simp only [Cert.Spec.node_contract_split]
  simp only [W_arg0 m c, W_arg12 m c, Nat.zero_add, slice_apply (VN (F := Ideal) m c main_v60) _ _ (after_main_v60 _) (V15_arg10 m c) (by decide),
    slice_apply (VN (F := Ideal) m c main_v61) _ _ (after_main_v61 _) (V15_arg10 m c) (by decide),
    slice_apply (VN (F := Ideal) m c main_v62) _ _ (after_main_v62 _) (V15_arg10 m c) (by decide),
    slice_apply (VN (F := Ideal) m c main_v63) _ _ (after_main_v63 _) (V15_arg10 m c) (by decide),
    slice_apply (VN (F := Ideal) m c main_v64) _ _ (after_main_v64 _) (V15_arg10 m c) (by decide),
    slice_apply (VN (F := Ideal) m c main_v65) _ _ (after_main_v65 _) (V15_arg10 m c) (by decide),
    slice_apply (VN (F := Ideal) m c main_v66) _ _ (after_main_v66 _) (V15_arg10 m c) (by decide),
    bias_apply (VN (F := Ideal) m c main_v67) _ _ (after_main_v67 _) (V15_arg11 m c), bias_apply (VN (F := Ideal) m c main_v68) _ _ (after_main_v68 _) (V15_arg13 m c)]
  rfl

end Cert.KernelIdeal.NodeValue

end
-- ==== Proof.EdgeValue.lean ====
import proofs.«425747_j24756191494619_2_alg».proof.Proof.Launch
import proofs.«425747_j24756191494619_2_alg».proof.Proof.EdgeRegion
import proofs.«425747_j24756191494619_2_alg».proof.Proof.Spec
import proofs.«425747_j24756191494619_2_alg».proof.Proof.LibMatmulPlain
import proofs.«425747_j24756191494619_2_alg».proof.Proof.NodeValue
import Idealize.ShloMosaic.Lib.Pipeline.Value
import Idealize.ShloMosaic.Lib.ValueIdx
import Idealize.ShloMosaic.Lib.ValueLayout

set_option maxRecDepth 16384

noncomputable section

namespace Cert.KernelIdeal.EdgeValue

open Cert.KernelIdeal Cert.KernelIdeal.Gen Cert.KernelIdeal.Launched
open Idealize.ShloMosaic Idealize.ShloMosaic.TcCoe Idealize.ShloMosaic.ValueIdx
open Idealize.ShloMosaic.Pipeline (Dat Cfg Window)
open Cert.KernelIdeal.NodeValue (hz idx_ext row_eq col_eq bias_apply)

def entry (xt ea : Fin 64 → EReal) (top bot : Fin 64 → Fin 128 → EReal) (b1 : Fin 128 → EReal)
    (w2 : Fin 128 → Fin 128 → EReal) (b2 : Fin 128 → EReal) (q : Fin 128) : EReal :=
  (∑ k : Fin 128, Cert.Spec.lrelu (((∑ i : Fin 64, xt i * top i k) + ∑ i : Fin 64, ea i * bot i k) + b1 k) * w2 k q) + b2 q

theorem entry_eq_edgeRow (xt ea : Fin 64 → EReal) (w1 : Fin 128 → Fin 128 → EReal) (b1 : Fin 128 → EReal)
    (w2 : Fin 128 → Fin 128 → EReal) (b2 : Fin 128 → EReal) (q : Fin 128) :
    entry xt ea (fun i k => w1 (Fin.castAdd 64 i) k) (fun i k => w1 (Fin.natAdd 64 i) k) b1 w2 b2 q
      = Cert.Spec.edgeRow xt ea w1 b1 w2 b2 q := by
  unfold entry Cert.Spec.edgeRow
  congr 1
  refine Finset.sum_congr rfl fun k _ => ?_
  rw [Cert.Spec.edge_contract_split xt ea (fun k' => w1 k' k)]

theorem pre_apply (x0 x1 : Vec Ideal S5000x64 .f32) (x2 x3 : Vec Ideal S64x128 .f32) (x4 : Vec Ideal S1x128 .f32)
    (p : Fin 5000) (k : Fin 128) :
    addf (addf
        (matmul dot_S5000x64_S64x128_S5000x128_1_0_0_1_n_n none (truncf .bf16 x0 bitsLt_bf16_f32)
          (truncf .bf16 x2 bitsLt_bf16_f32) (constant (F := Ideal) S5000x128 .f32 0x00000000#32))
        (matmul dot_S5000x64_S64x128_S5000x128_1_0_0_1_n_n none (truncf .bf16 x1 bitsLt_bf16_f32)
          (truncf .bf16 x3 bitsLt_bf16_f32) (constant (F := Ideal) S5000x128 .f32 0x00000000#32)))
      (broadcastTo S5000x128 x4 broadcasts_S1x128_S5000x128) (ix2 p k)
      = ((∑ i : Fin 64, x0 (ix2 p i) * x2 (ix2 i k)) + ∑ i : Fin 64, x1 (ix2 p i) * x3 (ix2 i k)) + x4 (ix2 (0 : Fin 1) k) := by
  unfold Idealize.ShloMosaic.matmul
  rw [addf_apply, addf_apply,
    Cert.Lib.MatmulPlain.matmul_zero_apply dot_S5000x64_S64x128_S5000x128_1_0_0_1_n_n rfl rfl rfl rfl rfl rfl,
    Cert.Lib.MatmulPlain.matmul_zero_apply dot_S5000x64_S64x128_S5000x128_1_0_0_1_n_n rfl rfl rfl rfl rfl rfl,
    broadcastTo_1b_ab_apply]
  rfl

theorem out_apply (x0 x1 : Vec Ideal S5000x64 .f32) (x2 x3 : Vec Ideal S64x128 .f32) (x4 : Vec Ideal S1x128 .f32)
    (x5 : Vec Ideal S128x128 .f32) (x6 : Vec Ideal S1x128 .f32) (p : Fin 5000) (q : Fin 128) :
    (EdgeMlp.out (F := Ideal) x0 x1 x2 x3 x4 x5 x6 : FVec Ideal S5000x128 .f32) (ix2 p q)
      = entry (fun i => x0 (ix2 p i)) (fun i => x1 (ix2 p i)) (fun i k => x2 (ix2 i k)) (fun i k => x3 (ix2 i k))
          (fun k => x4 (ix2 (0 : Fin 1) k)) (fun k q' => x5 (ix2 k q')) (fun q' => x6 (ix2 (0 : Fin 1) q')) q := by
  unfold EdgeMlp.out
  rw [View.canon_unit_zero hz]
  simp only [View.ld_unit_zero (S := S5000x64) hz, View.ld_unit_zero (S := S64x128) hz, View.ld_unit_zero (S := S1x128) hz,
    View.ld_unit_zero (S := S128x128) hz]
  unfold k0_pay1 entry
  simp only [shapeCast_self]
  rw [addf_apply]
  conv_lhs => arg 1; unfold Idealize.ShloMosaic.matmul
  rw [Cert.Lib.MatmulPlain.matmul_zero_apply dot_S5000x128_S128x128_S5000x128_1_0_0_1_n_n rfl rfl rfl rfl rfl rfl,
    broadcastTo_1b_ab_apply]
  congr 1
  refine Finset.sum_congr rfl fun k _ => ?_
  rw [truncf_apply, truncf_apply, select_apply, cmpf_apply, mulf_apply, broadcast_apply, broadcast_apply, pre_apply]
  rfl

theorem idx_facts : ∀ t : Fin cfg0.N, ∀ w : Fin 8, ∀ a : Fin (win0 w).shape.rank,
    (win0 w).index t a = if a.val = 0 ∧ (w.val < 2 ∨ w.val = 7) then t.val else 0 :=
  (by decide +kernel : ∀ t : Fin grid0.N, _)

section Blocks
variable (V : (c : Dev nD) → (b : Ref sig .tc) → Buf (Elt Ideal) ((c : Thread nD τ).loc b))

theorem iblk_0_apply (c : Dev nD) (t : Fin cfg0.N) (p : Fin 5000) (n : Fin 800000) (hn : n.val = 5000 * t.val + p.val) (i : Fin 64) :
    (EdgeMlp.iblk V c 0 t : Vec Ideal S5000x64 .f32) (ix2 p i) = V c main_v4 (ix2 n i) := by
  unfold EdgeMlp.iblk
  rw [View.read_apply]
  exact congrArg (V c main_v4) (idx_ext (Fin.forall_fin_two.2 ⟨row_eq (idx_facts t 0 (0 : Fin 2)) hn, col_eq (idx_facts t 0 (1 : Fin 2))⟩))

theorem iblk_1_apply (c : Dev nD) (t : Fin cfg0.N) (p : Fin 5000) (n : Fin 800000) (hn : n.val = 5000 * t.val + p.val) (i : Fin 64) :
    (EdgeMlp.iblk V c 1 t : Vec Ideal S5000x64 .f32) (ix2 p i) = V c main_arg3 (ix2 n i) := by
  unfold EdgeMlp.iblk
  rw [View.read_apply]
  exact congrArg (V c main_arg3) (idx_ext (Fin.forall_fin_two.2 ⟨row_eq (idx_facts t 1 (0 : Fin 2)) hn, col_eq (idx_facts t 1 (1 : Fin 2))⟩))

theorem iblk_2_eq (c : Dev nD) (t : Fin cfg0.N) :
    (EdgeMlp.iblk V c 2 t : Vec Ideal S64x128 .f32) = V c main_v5 := by
  funext j
  unfold EdgeMlp.iblk
  rw [View.read_apply]
  exact congrArg (V c main_v5) (idx_ext (Fin.forall_fin_two.2 ⟨col_eq (idx_facts t 2 (0 : Fin 2)), col_eq (idx_facts t 2 (1 : Fin 2))⟩))

theorem iblk_3_eq (c : Dev nD) (t : Fin cfg0.N) :
    (EdgeMlp.iblk V c 3 t : Vec Ideal S64x128 .f32) = V c main_v6 := by
  funext j
  unfold EdgeMlp.iblk
  rw [View.read_apply]
  exact congrArg (V c main_v6) (idx_ext (Fin.forall_fin_two.2 ⟨col_eq (idx_facts t 3 (0 : Fin 2)), col_eq (idx_facts t 3 (1 : Fin 2))⟩))

theorem iblk_4_eq (c : Dev nD) (t : Fin cfg0.N) :
    (EdgeMlp.iblk V c 4 t : Vec Ideal S1x128 .f32) = V c main_v7 := by
  funext j
  unfold EdgeMlp.iblk
  rw [View.read_apply]
  exact congrArg (V c main_v7) (idx_ext (Fin.forall_fin_two.2 ⟨col_eq (idx_facts t 4 (0 : Fin 2)), col_eq (idx_facts t 4 (1 : Fin 2))⟩))

theorem iblk_5_eq (c : Dev nD) (t : Fin cfg0.N) :
    (EdgeMlp.iblk V c 5 t : Vec Ideal S128x128 .f32) = V c main_arg8 := by
  funext j
  unfold EdgeMlp.iblk
  rw [View.read_apply]
  exact congrArg (V c main_arg8) (idx_ext (Fin.forall_fin_two.2 ⟨col_eq (idx_facts t 5 (0 : Fin 2)), col_eq (idx_facts t 5 (1 : Fin 2))⟩))

theorem iblk_6_eq (c : Dev nD) (t : Fin cfg0.N) :
    (EdgeMlp.iblk V c 6 t : Vec Ideal S1x128 .f32) = V c main_v8 := by
  funext j
  unfold EdgeMlp.iblk
  rw [View.read_apply]
  exact congrArg (V c main_v8) (idx_ext (Fin.forall_fin_two.2 ⟨col_eq (idx_facts t 6 (0 : Fin 2)), col_eq (idx_facts t 6 (1 : Fin 2))⟩))

end Blocks

theorem emb_out (t : Fin cfg0.N) (p : Fin 5000) (q : Fin 128) (n : Fin 800000) (hn : n.val = 5000 * t.val + p.val) :
    ((cfg0.win 7).blk t).view.emb (ix2 p q) = (ix2 n q : S800000x128.Idx) :=
  idx_ext (Fin.forall_fin_two.2 ⟨row_eq (idx_facts t 7 (0 : Fin 2)) hn, col_eq (idx_facts t 7 (1 : Fin 2))⟩)

theorem cut_eq_read (Gf : FVec Ideal S800000x128 .f32) (t : Fin cfg0.N) (X : Vec Ideal S5000x128 .f32)
    (h : ∀ (p : Fin 5000) (q : Fin 128) (n : Fin 800000), n.val = 5000 * t.val + p.val → X (ix2 p q) = Gf (ix2 n q)) :
    (cfg0.win 7).cut (grid0.coords t) X = ((cfg0.win 7).blk t).view.read (Elt Ideal) Gf := by
  funext j
  obtain ⟨p, q, rfl⟩ : ∃ (p : Fin 5000) (q : Fin 128), j = ix2 p q := ⟨j 0, j 1, eq_ix2 j⟩
  have hN : t.val < 160 := lt_of_lt_of_eq t.isLt (show cfg0.N = 160 from N_0)
  have hlt : 5000 * t.val + p.val < 800000 := by have := p.isLt; omega
  rw [View.read_apply]
  show X (ix2 p q) = Gf (((cfg0.win 7).blk t).view.emb (ix2 p q))
  rw [emb_out t p q ⟨_, hlt⟩ rfl]
  exact h p q _ rfl

section Array
variable (m : (ℓ : Loc nD τ sig) → Buf (Elt Ideal) ℓ) (c : Dev nD)

def G : FVec Ideal S800000x128 .f32 := fun j =>
  entry (fun i => (VE (F := Ideal) m c main_v4 : FVec Ideal S800000x64 .f32) (ix2 (j 0) i))
    (fun i => (VE (F := Ideal) m c main_arg3 : FVec Ideal S800000x64 .f32) (ix2 (j 0) i))
    (fun i k => (VE (F := Ideal) m c main_v5 : FVec Ideal S64x128 .f32) (ix2 i k))
    (fun i k => (VE (F := Ideal) m c main_v6 : FVec Ideal S64x128 .f32) (ix2 i k))
    (fun k => (VE (F := Ideal) m c main_v7 : FVec Ideal S1x128 .f32) (ix2 (0 : Fin 1) k))
    (fun k q' => (VE (F := Ideal) m c main_arg8 : FVec Ideal S128x128 .f32) (ix2 k q'))
    (fun q' => (VE (F := Ideal) m c main_v8 : FVec Ideal S1x128 .f32) (ix2 (0 : Fin 1) q')) (j 1)

theorem flushed_eq (t : Fin cfg0.N) :
    (EdgeMlp.dat (VE m) c).flushed 7 t = ((cfg0.win 7).blk t).view.read (Elt Ideal) (G m c) := by
  show (cfg0.win 7).cut (grid0.coords t) ((EdgeMlp.dat (VE m) c).after 7 t) = _
  rw [EdgeMlp.after_out]
  refine cut_eq_read (G m c) t _ fun p q n hn => ?_
  rw [out_apply]
  unfold G
  simp only [iblk_0_apply (VE m) c t p n hn, iblk_1_apply (VE m) c t p n hn, iblk_2_eq (VE m) c t, iblk_3_eq (VE m) c t, iblk_4_eq (VE m) c t,
    iblk_5_eq (VE m) c t, iblk_6_eq (VE m) c t]

theorem mem_blk (t : Fin cfg0.N) (i : S800000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v9).slice (win0_7.rect t)).set ↔ _
  rw [View.set_slice_whole, Rect.mem_set_unit]
  exact Iff.rfl

theorem cover (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  obtain ⟨t, ht⟩ : ∃ t : Fin cfg0.N, t.val = (i 0).val / 5000 := ⟨⟨(i 0).val / 5000, by rw [show cfg0.N = 160 from N_0]; omega⟩, rfl⟩
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; rw [show win0_7.index t (0 : Fin 2) = t.val from idx_facts t 7 (0 : Fin 2), ht]; omega
  | ⟨1, _⟩ => show win0_7.index t (1 : Fin 2) * 128 ≤ (i 1).val ∧ (i 1).val < win0_7.index t (1 : Fin 2) * 128 + 128; rw [show win0_7.index t (1 : Fin 2) = 0 from idx_facts t 7 (1 : Fin 2)]; omega

theorem msgOut_eq : msgOut (F := Ideal) m c = G m c := by
  unfold msgOut
  exact (EdgeMlp.dat (VE m) c).arrAt_eq_of_cover 7 (G m c) (fun t _ => flushed_eq m c t) cover

theorem W_arg3 : VE (F := Ideal) m c main_arg3 = m ((c.tc : Thread nD τ).loc main_arg3) :=
  (V3_of m c main_arg3 (by decide)).trans ((V2_of m c main_arg3 (by decide)).trans (V1_of m c main_arg3 (by decide)))

theorem W_arg8 : VE (F := Ideal) m c main_arg8 = m ((c.tc : Thread nD τ).loc main_arg8) :=
  (V3_of m c main_arg8 (by decide)).trans ((V2_of m c main_arg8 (by decide)).trans (V1_of m c main_arg8 (by decide)))

theorem V2_arg6 : V2 m c main_arg6 = m ((c.tc : Thread nD τ).loc main_arg6) :=
  (V2_of m c main_arg6 (by decide)).trans (V1_of m c main_arg6 (by decide))

theorem V2_arg7 : V2 m c main_arg7 = m ((c.tc : Thread nD τ).loc main_arg7) :=
  (V2_of m c main_arg7 (by decide)).trans (V1_of m c main_arg7 (by decide))

theorem V2_arg9 : V2 m c main_arg9 = m ((c.tc : Thread nD τ).loc main_arg9) :=
  (V2_of m c main_arg9 (by decide)).trans (V1_of m c main_arg9 (by decide))

/-- Rows `o …` of a matrix read it at `(o + i, k)`. -/
theorem slice_apply {o : Nat} {sl : (⟨2, ![128, 128]⟩ : Shape).Slices ![o, 0] ⟨2, ![64, 128]⟩} (A : FVec Ideal S64x128 .f32) (B B' : FVec Ideal S128x128 .f32)
    (h : A = extractStridedSlice S64x128 ![o, 0] B sl) (hB : B = B') (ho : o + 64 ≤ 128) (i : Fin 64) (k : Fin 128) :
    A (ix2 i k) = B' (ix2 ⟨o + i.val, by have := i.isLt; omega⟩ k) := by
  subst h hB
  exact slice2_axis0_apply o _ sl i k _ rfl

theorem after_main_v5 (X : Valuation τ sig (Elt Ideal)) : StableHlo.after hostOps0_2 X (main_v5 : DevRef τ sig)
    = extractStridedSlice S64x128 ![0, 0] (X (main_arg6 : DevRef τ sig)) slices_S128x128_S64x128_0_0 := by
  after_results

theorem after_main_v6 (X : Valuation τ sig (Elt Ideal)) : StableHlo.after hostOps0_2 X (main_v6 : DevRef τ sig)
    = extractStridedSlice S64x128 ![64, 0] (X (main_arg6 : DevRef τ sig)) slices_S128x128_S64x128_64_0 := by
  after_results

theorem after_main_v7 (X : Valuation τ sig (Elt Ideal)) : StableHlo.after hostOps0_2 X (main_v7 : DevRef τ sig)
    = shapeCast S1x128 (X (main_arg7 : DevRef τ sig)) shapeCasts_S128_S1x128 := by
  after_results
  rfl

theorem after_main_v8 (X : Valuation τ sig (Elt Ideal)) : StableHlo.after hostOps0_2 X (main_v8 : DevRef τ sig)
    = shapeCast S1x128 (X (main_arg9 : DevRef τ sig)) shapeCasts_S128_S1x128 := by
  after_results
  rfl

end Array

theorem msg_apply (m : (ℓ : Loc nD τ sig) → Buf (Elt Ideal) ℓ) (c : Dev nD) (e : Fin 800000) (q : Fin 128) :
    (msgOut (F := Ideal) m c : FVec Ideal S800000x128 .f32) (ix2 e q)
      = Cert.Spec.edgeRow (fun i => (V3 m c (Proc.devRef .tc main_v4) : FVec Ideal S800000x64 .f32) (ix2 e i))
          (fun i => (m ((c.tc : Thread nD τ).loc main_arg3) : FVec Ideal S800000x64 .f32) (ix2 e i))
          (fun k' k => (m ((c.tc : Thread nD τ).loc main_arg6) : FVec Ideal S128x128 .f32) (ix2 k' k))
          (fun k => (m ((c.tc : Thread nD τ).loc main_arg7) : FVec Ideal S128 .f32) (ix1 k))
          (fun k q' => (m ((c.tc : Thread nD τ).loc main_arg8) : FVec Ideal S128x128 .f32) (ix2 k q'))
          (fun q' => (m ((c.tc : Thread nD τ).loc main_arg9) : FVec Ideal S128 .f32) (ix1 q')) q := by
  rw [msgOut_eq]
  unfold G
  rw [← entry_eq_edgeRow]
  simp only [W_arg3 m c, W_arg8 m c, Nat.zero_add, slice_apply (VE (F := Ideal) m c main_v5) _ _ (after_main_v5 _) (V2_arg6 m c) (by decide),
    slice_apply (VE (F := Ideal) m c main_v6) _ _ (after_main_v6 _) (V2_arg6 m c) (by decide),
    bias_apply (VE (F := Ideal) m c main_v7) _ _ (after_main_v7 _) (V2_arg7 m c), bias_apply (VE (F := Ideal) m c main_v8) _ _ (after_main_v8 _) (V2_arg9 m c)]
  rfl

end Cert.KernelIdeal.EdgeValue

end
-- ==== Proof.LibDotPlain.lean ====
import Idealize.ShloMosaic.PureOps.Ideal.Laws
import Idealize.ShloMosaic.Lib.ValueIdx
import proofs.«425747_j24756191494619_2_alg».proof.Proof.LibMatmulPlain

noncomputable section

namespace Cert.Lib.DotPlain

open Idealize.ShloMosaic Idealize.ShloMosaic.ValueIdx Cert.Lib.MatmulPlain

variable {M K N : Nat} (d : DotDims ⟨2, ![M, K]⟩ ⟨2, ![K, N]⟩ ⟨2, ![M, N]⟩)

theorem dot_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec HostSchedule.single l r (ix2 p q) = _
  exact (Ideal.dotGeneral_apply d prec HostSchedule.single l r (ix2 p q)).trans (sum_plain d hlc hrc hln hrn hlb hrb (fun i j => l i * r j) p q)

end Cert.Lib.DotPlain

end
-- ==== Proof.RefNode.lean ====
import proofs.«425747_j24756191494619_2_alg».proof.Proof.RefRun
import proofs.«425747_j24756191494619_2_alg».proof.Proof.Spec
import proofs.«425747_j24756191494619_2_alg».proof.Proof.LibDotPlain
import Idealize.ShloMosaic.Lib.ValueIdx
import Idealize.ShloMosaic.Lib.Pipeline.Value
import Mathlib.Algebra.BigOperators.Group.Finset.Basic

noncomputable section

namespace Cert.ReferenceIdeal.RefNode

open Cert.ReferenceIdeal Cert.ReferenceIdeal.Ran Idealize.ShloMosaic Idealize.ShloMosaic.TcCoe Idealize.ShloMosaic.StableHlo
open Idealize.ShloMosaic.ValueIdx

theorem cat_cols_apply {α : Type} {R C Cp : Nat} (xs : List ((s : Shape) × (s.Idx → α)))
    (h : Shape.Concatenates (xs.map (·.1)) ⟨2, ![R, C]⟩ 1) (k : Nat) (hk : k < xs.length)
    (x₁ : (⟨2, ![R, Cp]⟩ : Shape).Idx → α) (hxk : xs[k] = ⟨⟨2, ![R, Cp]⟩, x₁⟩) (pre : Nat)
    (hpre : (((xs.take k).map (·.1)).map fun s : Shape =>
      if h : s.rank = (⟨2, ![R, C]⟩ : Shape).rank then s.size ((1 : Fin (⟨2, ![R, C]⟩ : Shape).rank).cast h.symm) else 0).sum = pre)
    (e : Fin R) (q : Fin Cp) (c : Fin C) (hc : pre + q.val = c.val) :
    concatenate ⟨2, ![R, C]⟩ 1 xs h (ix2 e c) = x₁ (ix2 e q) := by
  refine concatenate_apply_piece (1 : Fin 2) xs h (ix2 e c) k hk ⟨2, ![R, Cp]⟩ x₁ hxk rfl pre hpre (ix2 e q) ?_ ?_
  · intro b hb
    match b with
    | ⟨0, _⟩ => rfl
    | ⟨1, _⟩ => exact absurd rfl hb
  · exact hc

theorem bias_apply {α : Type} {N : Nat} (h1 : (⟨1, ![128]⟩ : Shape).BroadcastsInDim ⟨2, ![1, 128]⟩ ![1])
    (h2 : (⟨2, ![1, 128]⟩ : Shape).BroadcastsInDim ⟨2, ![N, 128]⟩ ![0, 1]) (b : (⟨1, ![128]⟩ : Shape).Idx → α)
    (n : Fin N) (q : Fin 128) :
    broadcastInDim ⟨2, ![N, 128]⟩ ![0, 1] h2 (broadcastInDim ⟨2, ![1, 128]⟩ ![1] h1 b) (ix2 n q) = b (ix1 q) := by
  rw [broadcastInDim_apply ![0, 1] h2 _ (ix2 n q) (ix2 (0 : Fin 1) q) (fun a => by
    match a with
    | ⟨0, _⟩ => rfl
    | ⟨1, _⟩ => rfl)]
  exact broadcastInDim_apply ![1] h1 b (ix2 (0 : Fin 1) q) (ix1 q) (fun a => by
    match a with
    | ⟨0, _⟩ => rfl)

variable (W : Valuation τ sig (Elt Ideal))

def feat : FVec Ideal S50000x705 .f32 :=
  concatenate S50000x705 1 [⟨S50000x128, (W (Proc.devRef .tc main_arg0) : FVec Ideal S50000x128 .f32)⟩, ⟨S50000x1, (W (Proc.devRef .tc main_v24) : FVec Ideal S50000x1 .f32)⟩,
    ⟨S50000x128, (W (Proc.devRef .tc main_v71) : FVec Ideal S50000x128 .f32)⟩, ⟨S50000x128, (W (Proc.devRef .tc main_v75) : FVec Ideal S50000x128 .f32)⟩,
    ⟨S50000x128, (W (Proc.devRef .tc main_v76) : FVec Ideal S50000x128 .f32)⟩, ⟨S50000x128, (W (Proc.devRef .tc main_v77) : FVec Ideal S50000x128 .f32)⟩,
    ⟨S50000x64, (W (Proc.devRef .tc main_v84) : FVec Ideal S50000x64 .f32)⟩]
    Gen.concatenates_S50000x128_S50000x1_S50000x128_S50000x128_S50000x128_S50000x128_S50000x64_S50000x705_d1

def hid : FVec Ideal S50000x128 .f32 :=
  addf (Host.dotGeneral (φ₁ := .f32) (φ₂ := .f32) dot_S50000x705_S705x128_S50000x128_1_0_0_1_n_n none (feat W) (W (Proc.devRef .tc main_arg10) : FVec Ideal S705x128 .f32))
    (broadcastInDim S50000x128 ![0, 1] Gen.bcast_S1x128_S50000x128_0_1
      (broadcastInDim S1x128 ![1] Gen.bcast_S128_S1x128_1 (W (Proc.devRef .tc main_arg11) : FVec Ideal S128 .f32)))

def act : FVec Ideal S50000x128 .f32 :=
  select (cmpf .oge (hid W) (broadcastInDim S50000x128 ![] Gen.bcast_S_S50000x128 (constant (F := Ideal) S_ .f32 0x00000000#32)))
    (hid W)
    (mulf (broadcastInDim S50000x128 ![] Gen.bcast_S_S50000x128 (constant (F := Ideal) S_ .f32 0x3DCCCCCD#32)) (hid W))

set_option maxHeartbeats 4000000 in

theorem v94_eq : (after opsD W (Proc.devRef .tc main_v94) : FVec Ideal S50000x128 .f32)
    = addf (Host.dotGeneral (φ₁ := .f32) (φ₂ := .f32) dot_S50000x128_S128x128_S50000x128_1_0_0_1_n_n none (act W) (W (Proc.devRef .tc main_arg12) : FVec Ideal S128x128 .f32))
        (broadcastInDim S50000x128 ![0, 1] Gen.bcast_S1x128_S50000x128_0_1
          (broadcastInDim S1x128 ![1] Gen.bcast_S128_S1x128_1 (W (Proc.devRef .tc main_arg13) : FVec Ideal S128 .f32))) := by
  after_results
  simp only [TRef.ofBuf, TRef.toBuf, cast_eq, id_eq]
  rfl

theorem feat_row (n : Fin 50000) (k' : Fin (128 + (1 + (128 + (128 + (128 + (128 + 64))))))) :
    feat W (ix2 n k') = Cert.Spec.nodeFeatures (fun i => (W (Proc.devRef .tc main_arg0) : FVec Ideal S50000x128 .f32) (ix2 n i))
      ((W (Proc.devRef .tc main_v24) : FVec Ideal S50000x1 .f32) (ix2 n 0))
      (fun i => (W (Proc.devRef .tc main_v71) : FVec Ideal S50000x128 .f32) (ix2 n i))
      (fun i => (W (Proc.devRef .tc main_v75) : FVec Ideal S50000x128 .f32) (ix2 n i))
      (fun i => (W (Proc.devRef .tc main_v76) : FVec Ideal S50000x128 .f32) (ix2 n i))
      (fun i => (W (Proc.devRef .tc main_v77) : FVec Ideal S50000x128 .f32) (ix2 n i))
      (fun i => (W (Proc.devRef .tc main_v84) : FVec Ideal S50000x64 .f32) (ix2 n i)) k' := by
  unfold Cert.Spec.nodeFeatures feat
  refine Fin.addCases (fun i => ?_) (fun i => ?_) k'
  · rw [Fin.append_left]
    refine cat_cols_apply _ _ 0 (by show (0 : Nat) < 7; omega) _ rfl 0 rfl n i _ ?_
    show 0 + i.val = i.val
    omega
  rw [Fin.append_right]
  refine Fin.addCases (fun i => ?_) (fun i => ?_) i
  · rw [Fin.append_left]
    have hi : i = 0 := Subsingleton.elim _ _
    subst hi
    refine cat_cols_apply _ _ 1 (by show (1 : Nat) < 7; omega) _ rfl 128 rfl n 0 _ ?_
    show 128 + (0 : Fin 1).val = 128 + (0 : Fin 1).val
    omega
  rw [Fin.append_right]
  refine Fin.addCases (fun i => ?_) (fun i => ?_) i
  · rw [Fin.append_left]
    refine cat_cols_apply _ _ 2 (by show (2 : Nat) < 7; omega) _ rfl 129 rfl n i _ ?_
    show 129 + i.val = 128 + (1 + i.val)
    omega
  rw [Fin.append_right]
  refine Fin.addCases (fun i => ?_) (fun i => ?_) i
  · rw [Fin.append_left]
    refine cat_cols_apply _ _ 3 (by show (3 : Nat) < 7; omega) _ rfl 257 rfl n i _ ?_
    show 257 + i.val = 128 + (1 + (128 + i.val))
    omega
  rw [Fin.append_right]
  refine Fin.addCases (fun i => ?_) (fun i => ?_) i
  · rw [Fin.append_left]
    refine cat_cols_apply _ _ 4 (by show (4 : Nat) < 7; omega) _ rfl 385 rfl n i _ ?_
    show 385 + i.val = 128 + (1 + (128 + (128 + i.val)))
    omega
  rw [Fin.append_right]
  refine Fin.addCases (fun i => ?_) (fun i => ?_) i
  · rw [Fin.append_left]
    refine cat_cols_apply _ _ 5 (by show (5 : Nat) < 7; omega) _ rfl 513 rfl n i _ ?_
    show 513 + i.val = 128 + (1 + (128 + (128 + (128 + i.val))))
    omega
  · rw [Fin.append_right]
    refine cat_cols_apply _ _ 6 (by show (6 : Nat) < 7; omega) _ rfl 641 rfl n i _ ?_
    show 641 + i.val = 128 + (1 + (128 + (128 + (128 + (128 + i.val)))))
    omega

theorem act_apply (j : S50000x128.Idx) : act W j = Cert.Spec.lrelu (hid W j) := rfl

theorem hid_apply (n : Fin 50000) (k : Fin 128) :
    hid W (ix2 n k) = (∑ k' : Fin 705, Cert.Spec.nodeFeatures (fun i => (W (Proc.devRef .tc main_arg0) : FVec Ideal S50000x128 .f32) (ix2 n i))
      ((W (Proc.devRef .tc main_v24) : FVec Ideal S50000x1 .f32) (ix2 n 0))
      (fun i => (W (Proc.devRef .tc main_v71) : FVec Ideal S50000x128 .f32) (ix2 n i))
      (fun i => (W (Proc.devRef .tc main_v75) : FVec Ideal S50000x128 .f32) (ix2 n i))
      (fun i => (W (Proc.devRef .tc main_v76) : FVec Ideal S50000x128 .f32) (ix2 n i))
      (fun i => (W (Proc.devRef .tc main_v77) : FVec Ideal S50000x128 .f32) (ix2 n i))
      (fun i => (W (Proc.devRef .tc main_v84) : FVec Ideal S50000x64 .f32) (ix2 n i)) k'
        * (W (Proc.devRef .tc main_arg10) : FVec Ideal S705x128 .f32) (ix2 k' k)) + (W (Proc.devRef .tc main_arg11) : FVec Ideal S128 .f32) (ix1 k) := by
  show Host.dotGeneral (φ₁ := .f32) (φ₂ := .f32) dot_S50000x705_S705x128_S50000x128_1_0_0_1_n_n none (feat W) (W (Proc.devRef .tc main_arg10) : FVec Ideal S705x128 .f32) (ix2 n k)
    + broadcastInDim S50000x128 ![0, 1] Gen.bcast_S1x128_S50000x128_0_1
      (broadcastInDim S1x128 ![1] Gen.bcast_S128_S1x128_1 (W (Proc.devRef .tc main_arg11) : FVec Ideal S128 .f32)) (ix2 n k) = _
  rw [Cert.Lib.DotPlain.dot_apply dot_S50000x705_S705x128_S50000x128_1_0_0_1_n_n rfl rfl rfl rfl rfl rfl, bias_apply]
  exact congrArg (· + _) (Finset.sum_congr rfl fun k' _ => congrArg (· * _) (feat_row W n k'))

theorem out_apply (n : Fin 50000) (q : Fin 128) :
    (after opsD W (Proc.devRef .tc main_v94) : FVec Ideal S50000x128 .f32) (ix2 n q)
      = Cert.Spec.nodeRow (fun i => (W (Proc.devRef .tc main_arg0) : FVec Ideal S50000x128 .f32) (ix2 n i))
      ((W (Proc.devRef .tc main_v24) : FVec Ideal S50000x1 .f32) (ix2 n 0))
      (fun i => (W (Proc.devRef .tc main_v71) : FVec Ideal S50000x128 .f32) (ix2 n i))
      (fun i => (W (Proc.devRef .tc main_v75) : FVec Ideal S50000x128 .f32) (ix2 n i))
      (fun i => (W (Proc.devRef .tc main_v76) : FVec Ideal S50000x128 .f32) (ix2 n i))
      (fun i => (W (Proc.devRef .tc main_v77) : FVec Ideal S50000x128 .f32) (ix2 n i))
      (fun i => (W (Proc.devRef .tc main_v84) : FVec Ideal S50000x64 .f32) (ix2 n i))
          (fun k' k => (W (Proc.devRef .tc main_arg10) : FVec Ideal S705x128 .f32) (ix2 k' k))
          (fun k => (W (Proc.devRef .tc main_arg11) : FVec Ideal S128 .f32) (ix1 k))
          (fun k q' => (W (Proc.devRef .tc main_arg12) : FVec Ideal S128x128 .f32) (ix2 k q'))
          (fun q' => (W (Proc.devRef .tc main_arg13) : FVec Ideal S128 .f32) (ix1 q')) q := by
  rw [v94_eq W]
  show Host.dotGeneral (φ₁ := .f32) (φ₂ := .f32) dot_S50000x128_S128x128_S50000x128_1_0_0_1_n_n none (act W) (W (Proc.devRef .tc main_arg12) : FVec Ideal S128x128 .f32) (ix2 n q)
    + broadcastInDim S50000x128 ![0, 1] Gen.bcast_S1x128_S50000x128_0_1
      (broadcastInDim S1x128 ![1] Gen.bcast_S128_S1x128_1 (W (Proc.devRef .tc main_arg13) : FVec Ideal S128 .f32)) (ix2 n q) = _
  rw [Cert.Lib.DotPlain.dot_apply dot_S50000x128_S128x128_S50000x128_1_0_0_1_n_n rfl rfl rfl rfl rfl rfl, bias_apply]
  unfold Cert.Spec.nodeRow
  refine congrArg (· + _) (Finset.sum_congr rfl fun k _ => congrArg (· * _) ?_)
  rw [act_apply, hid_apply]

end Cert.ReferenceIdeal.RefNode

end
-- ==== Proof.RefEdge.lean ====
import proofs.«425747_j24756191494619_2_alg».proof.Proof.RefNode
import proofs.«425747_j24756191494619_2_alg».proof.Proof.Spec
import proofs.«425747_j24756191494619_2_alg».proof.Proof.LibDotPlain
import Idealize.ShloMosaic.Lib.Pipeline.Value
import Idealize.ShloMosaic.Lib.ValueIdx
import Idealize.ShloMosaic.Lib.ValueLayout

noncomputable section

namespace Cert.ReferenceIdeal.RefEdge

open Cert.ReferenceIdeal Cert.ReferenceIdeal.Ran Idealize.ShloMosaic Idealize.ShloMosaic.TcCoe Idealize.ShloMosaic.StableHlo ValueIdx
open Idealize.ShloMosaic.ValueIdx
open Cert.ReferenceIdeal.Gen

section Pure
variable {α : Type}

theorem wrap {S : Shape} (hb : S_.BroadcastsInDim S (![] : Fin 0 → Fin S.rank)) (n : BitVec 32) (i : IVec S 32)
    (h : ∀ e, 0 ≤ (i e).toInt) :
    select (cmpi .slt i (broadcastInDim S ![] hb (constantI S_ 32 0#32)))
      (addi i (broadcastInDim S ![] hb (constantI S_ 32 n))) i = i := by
  funext e
  have hs : (i e).slt 0#32 = false := by
    simp only [BitVec.slt, BitVec.toInt_zero, decide_eq_false_iff_not, not_lt]
    exact h e
  show Scalar.select (BitVec.ofBool ((i e).slt 0#32)) _ _ = i e
  rw [hs]
  exact select_zero _ _

theorem concat2_apply {M : Nat} (a b : (⟨2, ![M, 64]⟩ : Shape).Idx → α)
    (h : Shape.Concatenates (([⟨⟨2, ![M, 64]⟩, a⟩, ⟨⟨2, ![M, 64]⟩, b⟩] : List ((s : Shape) × (s.Idx → α))).map (·.1))
      ⟨2, ![M, 128]⟩ 1)
    (r : Fin M) (k : Fin 128) :
    concatenate ⟨2, ![M, 128]⟩ 1 [⟨⟨2, ![M, 64]⟩, a⟩, ⟨⟨2, ![M, 64]⟩, b⟩] h (ix2 r k)
      = Fin.append (fun i : Fin 64 => a (ix2 r i)) (fun i : Fin 64 => b (ix2 r i)) k := by
  refine Fin.addCases (m := 64) (n := 64)
    (motive := fun k => concatenate ⟨2, ![M, 128]⟩ 1 [⟨⟨2, ![M, 64]⟩, a⟩, ⟨⟨2, ![M, 64]⟩, b⟩] h (ix2 r k)
      = Fin.append (fun i : Fin 64 => a (ix2 r i)) (fun i : Fin 64 => b (ix2 r i)) k) (fun i => ?_) (fun i => ?_) k
  · rw [Fin.append_left]
    exact RefNode.cat_cols_apply _ h 0 (by show (0 : Nat) < 2; omega) a rfl 0 rfl r i _ (Nat.zero_add _)
  · rw [Fin.append_right]
    exact RefNode.cat_cols_apply _ h 1 (by show (1 : Nat) < 2; omega) b rfl 64 rfl r i _ rfl

end Pure

theorem opsA_split (W : Valuation τ sig (Elt Ideal)) : after opsA W = after opsA1 (after opsA0 W) := by
  simp only [opsA, Ran.after_append]

theorem opsA_eq_A0 (W : Valuation τ sig (Elt Ideal)) {r : Ref sig .tc} (h : r ∉ opsA1_W) :
    after opsA W (Proc.devRef .tc r) = after opsA0 W (Proc.devRef .tc r) := by
  rw [opsA_split, after_of_writes_sub opsA1 _ opsA1_writes h]

theorem opsA0_keep (W : Valuation τ sig (Elt Ideal)) {r : Ref sig .tc} (h : r ∉ opsA0_W) :
    after opsA0 W (Proc.devRef .tc r) = W (Proc.devRef .tc r) :=
  after_of_writes_sub opsA0 W opsA0_writes h

theorem src_tgt (W : Valuation τ sig (Elt Ideal)) (e : Fin 800000) :
    (after opsA W (Proc.devRef .tc main_v1) : IVec S800000 32) (ix1 e) = (W (Proc.devRef .tc main_arg2) : IVec S2x800000 32) (ix2 0 e)
      ∧ (after opsA W (Proc.devRef .tc main_v3) : IVec S800000 32) (ix1 e) = (W (Proc.devRef .tc main_arg2) : IVec S2x800000 32) (ix2 1 e) := by
  have t1 : (after opsA0 W (Proc.devRef .tc main_v1) : IVec S800000 32)
      = shapeCast S800000 (extractStridedSlice S1x800000 ![0, 0] (W (Proc.devRef .tc main_arg2)) slices_S2x800000_S1x800000_0_0)
          shapeCasts_S1x800000_S800000 := by
    after_results_simp
    rfl
  have t3 : (after opsA0 W (Proc.devRef .tc main_v3) : IVec S800000 32)
      = shapeCast S800000 (extractStridedSlice S1x800000 ![1, 0] (W (Proc.devRef .tc main_arg2)) slices_S2x800000_S1x800000_1_0)
          shapeCasts_S1x800000_S800000 := by
    after_results_simp
    rfl
  rw [opsA_eq_A0 W (r := main_v1) (by decide), opsA_eq_A0 W (r := main_v3) (by decide), t1, t3]
  constructor
  · rw [shapeCast_1a_a_apply, slice2_axis0_apply 0 _ _ (0 : Fin 1) e (0 : Fin 2) rfl]
  · rw [shapeCast_1a_a_apply, slice2_axis0_apply 1 _ _ (0 : Fin 1) e (1 : Fin 2) rfl]

theorem rows_xt (W : Valuation τ sig (Elt Ideal))
    (h : ∀ e : S800000.Idx, 0 ≤ ((after opsA W (Proc.devRef .tc main_v3) : IVec S800000 32) e).toInt) :
    (after opsA W (Proc.devRef .tc main_v10) : FVec Ideal S800000x64 .f32)
      = Host.gather gather_S50000x64_S800000x1_S800000x64_1_0_n_n_0_1_164 (W (Proc.devRef .tc main_arg1))
          (broadcastInDim S800000x1 ![0] bcast_S800000_S800000x1_0 (after opsA W (Proc.devRef .tc main_v3))) := by
  have t : (after opsA0 W (Proc.devRef .tc main_v10) : FVec Ideal S800000x64 .f32)
      = Host.gather gather_S50000x64_S800000x1_S800000x64_1_0_n_n_0_1_164 (W (Proc.devRef .tc main_arg1))
          (broadcastInDim S800000x1 ![0] bcast_S800000_S800000x1_0
            (select (cmpi .slt (after opsA0 W (Proc.devRef .tc main_v3) : IVec S800000 32)
                (broadcastInDim S800000 ![] bcast_S_S800000 (constantI S_ 32 0#32)))
              (addi (after opsA0 W (Proc.devRef .tc main_v3) : IVec S800000 32)
                (broadcastInDim S800000 ![] bcast_S_S800000 (constantI S_ 32 50000#32)))
              (after opsA0 W (Proc.devRef .tc main_v3) : IVec S800000 32))) := by
    after_results_simp
  rw [opsA_eq_A0 W (r := main_v3) (by decide)] at h ⊢
  rw [opsA_eq_A0 W (r := main_v10) (by decide), t, wrap bcast_S_S800000 50000#32 _ h]

def hid (V : Valuation τ sig (Elt Ideal)) : FVec Ideal S800000x128 .f32 :=
  addf (Host.dotGeneral (φ₁ := .f32) (φ₂ := .f32) dot_S800000x128_S128x128_S800000x128_1_0_0_1_n_n none
      (concatenate (α := Ideal .f32) S800000x128 1
        [⟨S800000x64, V (Proc.devRef .tc main_v10)⟩, ⟨S800000x64, V (Proc.devRef .tc main_arg3)⟩]
        concatenates_S800000x64_S800000x64_S800000x128_d1)
      (V (Proc.devRef .tc main_arg6)))
    (broadcastInDim (α := Ideal .f32) S800000x128 ![0, 1] bcast_S1x128_S800000x128_0_1
      (broadcastInDim (α := Ideal .f32) S1x128 ![1] bcast_S128_S1x128_1 (V (Proc.devRef .tc main_arg7))))

def pre (xt ea : Fin 64 → EReal) (w1 : Fin 128 → Fin 128 → EReal) (b1 : Fin 128 → EReal) (k : Fin 128) : EReal :=
  (∑ k' : Fin 128, Fin.append xt ea k' * w1 k' k) + b1 k

theorem hid_apply (V : Valuation τ sig (Elt Ideal)) (e : Fin 800000) (k : Fin 128) :
    hid V (ix2 e k)
      = pre (fun i => (V (Proc.devRef .tc main_v10) : FVec Ideal S800000x64 .f32) (ix2 e i))
          (fun i => (V (Proc.devRef .tc main_arg3) : FVec Ideal S800000x64 .f32) (ix2 e i))
          (fun k' k => (V (Proc.devRef .tc main_arg6) : FVec Ideal S128x128 .f32) (ix2 k' k))
          (fun k => (V (Proc.devRef .tc main_arg7) : FVec Ideal S128 .f32) (ix1 k)) k := by
  unfold hid pre
  rw [addf_apply, Cert.Lib.DotPlain.dot_apply _ rfl rfl rfl rfl rfl rfl, RefNode.bias_apply]
  congr 1
  refine Finset.sum_congr rfl fun k' _ => ?_
  rw [concat2_apply]

set_option maxHeartbeats 1000000 in

theorem v20_read (V : Valuation τ sig (Elt Ideal)) :
    (after opsA1 V (Proc.devRef .tc main_v20) : FVec Ideal S800000x128 .f32)
      = addf (Host.dotGeneral (φ₁ := .f32) (φ₂ := .f32) dot_S800000x128_S128x128_S800000x128_1_0_0_1_n_n none
            (select (cmpf .oge (hid V) (broadcastInDim S800000x128 ![] bcast_S_S800000x128 (constant S_ .f32 0x00000000#32)))
              (hid V)
              (mulf (broadcastInDim S800000x128 ![] bcast_S_S800000x128 (constant S_ .f32 0x3DCCCCCD#32)) (hid V)))
            (V (Proc.devRef .tc main_arg8)))
          (broadcastInDim (α := Ideal .f32) S800000x128 ![0, 1] bcast_S1x128_S800000x128_0_1
            (broadcastInDim (α := Ideal .f32) S1x128 ![1] bcast_S128_S1x128_1 (V (Proc.devRef .tc main_arg9)))) := by
  after_results_simp
  rfl

theorem msg_read (V : Valuation τ sig (Elt Ideal)) (e : Fin 800000) (q : Fin 128) :
    (after opsA1 V (Proc.devRef .tc main_v20) : FVec Ideal S800000x128 .f32) (ix2 e q)
      = Cert.Spec.edgeRow (fun i => (V (Proc.devRef .tc main_v10) : FVec Ideal S800000x64 .f32) (ix2 e i))
          (fun i => (V (Proc.devRef .tc main_arg3) : FVec Ideal S800000x64 .f32) (ix2 e i))
          (fun k' k => (V (Proc.devRef .tc main_arg6) : FVec Ideal S128x128 .f32) (ix2 k' k))
          (fun k => (V (Proc.devRef .tc main_arg7) : FVec Ideal S128 .f32) (ix1 k))
          (fun k q' => (V (Proc.devRef .tc main_arg8) : FVec Ideal S128x128 .f32) (ix2 k q'))
          (fun q' => (V (Proc.devRef .tc main_arg9) : FVec Ideal S128 .f32) (ix1 q')) q := by
  rw [v20_read, addf_apply, Cert.Lib.DotPlain.dot_apply _ rfl rfl rfl rfl rfl rfl, RefNode.bias_apply]
  unfold Cert.Spec.edgeRow
  congr 1
  refine Finset.sum_congr rfl fun k _ => ?_
  congr 1
  show Cert.Spec.lrelu (hid V (ix2 e k)) = _
  rw [hid_apply]
  rfl

theorem msg_apply (W : Valuation τ sig (Elt Ideal)) (e : Fin 800000) (q : Fin 128) :
    (after opsA W (Proc.devRef .tc main_v20) : FVec Ideal S800000x128 .f32) (ix2 e q)
      = Cert.Spec.edgeRow (fun i => (after opsA W (Proc.devRef .tc main_v10) : FVec Ideal S800000x64 .f32) (ix2 e i))
          (fun i => (W (Proc.devRef .tc main_arg3) : FVec Ideal S800000x64 .f32) (ix2 e i))
          (fun k' k => (W (Proc.devRef .tc main_arg6) : FVec Ideal S128x128 .f32) (ix2 k' k))
          (fun k => (W (Proc.devRef .tc main_arg7) : FVec Ideal S128 .f32) (ix1 k))
          (fun k q' => (W (Proc.devRef .tc main_arg8) : FVec Ideal S128x128 .f32) (ix2 k q'))
          (fun q' => (W (Proc.devRef .tc main_arg9) : FVec Ideal S128 .f32) (ix1 q')) q := by
  rw [opsA_eq_A0 W (r := main_v10) (by decide), opsA_split, msg_read, opsA0_keep W (r := main_arg3) (by decide),
    opsA0_keep W (r := main_arg6) (by decide), opsA0_keep W (r := main_arg7) (by decide),
    opsA0_keep W (r := main_arg8) (by decide), opsA0_keep W (r := main_arg9) (by decide)]

end Cert.ReferenceIdeal.RefEdge

end
-- ==== Proof.LibRowIndexed.lean ====
import Idealize.ShloMosaic.PureOps
import Idealize.ShloMosaic.Lib.ValueIdx
import Idealize.ShloMosaic.Lib.StableHlo.Predicate

namespace Idealize.ShloMosaic.RowIndexed

open Idealize.ShloMosaic Idealize.ShloMosaic.ValueIdx Idealize.ShloMosaic.StableHlo.Predicate

abbrev rowScatter (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ :=
  ⟨[1], [0], [0], 1, wf⟩

section
variable {N C n w : Nat} (wf : ScatterDims.WF ⟨2, ![N, C]⟩ ⟨2, ![n, 1]⟩ ⟨2, ![n, C]⟩ [1] [0] [0] 1)
  (idx : IVec ⟨2, ![n, 1]⟩ w) (e : Fin n) (q : Fin C)

theorem rowScatter_start0 (h0 : 0 < 2) : (rowScatter N C n wf).start (ix2 e q) idx ⟨0, h0⟩ = (idx (ixP e)).toInt := by
  unfold ScatterDims.start
  rw [dif_pos (show (⟨0, h0⟩ : Fin 2) ∈ (rowScatter N C n wf).scatterDimsToOperandDims from List.mem_singleton.mpr rfl)]
  have hsi : (rowScatter N C n wf).siIdx (ix2 e q) ⟨List.idxOf (⟨0, h0⟩ : Fin 2) (rowScatter N C n wf).scatterDimsToOperandDims,
      List.idxOf_lt_length_iff.2 (List.mem_singleton.mpr rfl)⟩ = ixP e := by
    funext b; refine Fin.ext ?_
    match b with
    | ⟨0, _⟩ => rfl
    | ⟨1, _⟩ => rfl
  rw [hsi]

theorem rowScatter_start1 (h1 : 1 < 2) : (rowScatter N C n wf).start (ix2 e q) idx ⟨1, h1⟩ = 0 := by
  unfold ScatterDims.start
  rw [dif_neg (fun h => absurd (congrArg Fin.val (List.mem_singleton.mp h)) Nat.one_ne_zero)]

theorem rowScatter_sKept : (rowScatter N C n wf).sKept = [(1 : Fin 2)] := rfl

theorem rowScatter_window0 (h0 : 0 < 2) : (rowScatter N C n wf).window (ix2 e q) ⟨0, h0⟩ = 0 := by
  unfold ScatterDims.window
  rw [dif_neg (fun h => by
    rw [rowScatter_sKept] at h
    exact absurd (congrArg Fin.val (List.mem_singleton.mp h)) (Nat.zero_ne_one))]

theorem rowScatter_window1 (h1 : 1 < 2) : (rowScatter N C n wf).window (ix2 e q) ⟨1, h1⟩ = q.val := by
  unfold ScatterDims.window
  rw [dif_pos (by rw [rowScatter_sKept]; exact List.mem_singleton.mpr rfl)]
  rfl

theorem rowScatter_resultIdx (i : (⟨2, ![N, C]⟩ : Shape).Idx) :
    (rowScatter N C n wf).resultIdx? (ix2 e q) idx = some i ↔ (idx (ixP e)).toInt = ((i 0).val : Int) ∧ q = i 1 := by
  have hi0 : (i 0).val < N := (i 0).isLt
  have hi1 : (i 1).val < C := (i 1).isLt
  have hq : q.val < C := q.isLt
  constructor
  · intro hres
    unfold ScatterDims.resultIdx? at hres
    split at hres
    · rename_i h
      have hres' := Option.some.inj hres
      have e0 : ((rowScatter N C n wf).start (ix2 e q) idx ⟨0, Nat.zero_lt_two⟩ + (rowScatter N C n wf).window (ix2 e q) ⟨0, Nat.zero_lt_two⟩).toNat = (i 0).val :=
        congrArg Fin.val (congrFun hres' ⟨0, Nat.zero_lt_two⟩)
      have e1 : ((rowScatter N C n wf).start (ix2 e q) idx ⟨1, Nat.one_lt_two⟩ + (rowScatter N C n wf).window (ix2 e q) ⟨1, Nat.one_lt_two⟩).toNat = (i 1).val :=
        congrArg Fin.val (congrFun hres' ⟨1, Nat.one_lt_two⟩)
      have h0 := (h ⟨0, Nat.zero_lt_two⟩).1
      rw [rowScatter_start0, rowScatter_window0] at e0 h0
      rw [rowScatter_start1, rowScatter_window1] at e1
      refine ⟨by omega, Fin.ext (by omega)⟩
    · exact absurd hres (by simp)
  · rintro ⟨ht, hq'⟩
    unfold ScatterDims.resultIdx?
    have h : ∀ a : Fin 2, 0 ≤ (rowScatter N C n wf).start (ix2 e q) idx a + (rowScatter N C n wf).window (ix2 e q) a
        ∧ (rowScatter N C n wf).start (ix2 e q) idx a + (rowScatter N C n wf).window (ix2 e q) a < (⟨2, ![N, C]⟩ : Shape).size a := by
      intro a
      match a with
      | ⟨0, h0⟩ =>
        rw [rowScatter_start0, rowScatter_window0, ht]
        show 0 ≤ ((i 0).val : Int) + ((0 : Nat) : Int) ∧ ((i 0).val : Int) + ((0 : Nat) : Int) < (N : Int)
        omega
      | ⟨1, h1⟩ =>
        rw [rowScatter_start1, rowScatter_window1]
        show 0 ≤ (0 : Int) + (q.val : Int) ∧ (0 : Int) + (q.val : Int) < (C : Int)
        omega
    rw [dif_pos h]
    congr 1
    funext a
    apply Fin.ext
    match a with
    | ⟨0, h0⟩ =>
      show ((rowScatter N C n wf).start (ix2 e q) idx ⟨0, h0⟩ + (rowScatter N C n wf).window (ix2 e q) ⟨0, h0⟩).toNat = (i ⟨0, h0⟩).val
      rw [rowScatter_start0, rowScatter_window0, ht]
      show (((i 0).val : Int) + ((0 : Nat) : Int)).toNat = (i 0).val
      omega
    | ⟨1, h1⟩ =>
      show ((rowScatter N C n wf).start (ix2 e q) idx ⟨1, h1⟩ + (rowScatter N C n wf).window (ix2 e q) ⟨1, h1⟩).toNat = (i ⟨1, h1⟩).val
      rw [rowScatter_start1, rowScatter_window1, hq']
      show ((0 : Int) + ((i 1).val : Int)).toNat = (i 1).val
      omega

end

theorem resultIdx_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (q : Fin C) (i : (⟨2, ![N, C]⟩ : Shape).Idx) :
    d.resultIdx? (ix2 e q) idx = some i ↔ (idx (ixP e)).toInt = ((i 0).val : Int) ∧ q = i 1 := by
  obtain ⟨uw, iw, sd, ivd, wf⟩ := d
  dsimp only at huw hiw hsd hivd
  subst huw hiw hsd hivd
  exact rowScatter_resultIdx wf idx e q i

end Idealize.ShloMosaic.RowIndexed
-- ==== Proof.LibScatterAddRows.lean ====
import proofs.«425747_j24756191494619_2_alg».proof.Proof.LibRowIndexed
import Idealize.ShloMosaic.PureOps.Ideal
import Idealize.ShloMosaic.Lib.ValueIdx
import Idealize.ShloMosaic.Lib.Pipeline.Value
import Mathlib.Algebra.BigOperators.Group.Finset.Basic

noncomputable section

open scoped BigOperators

namespace Idealize.ShloMosaic.ScatterAddRows

open Idealize.ShloMosaic Idealize.ShloMosaic.ValueIdx Idealize.ShloMosaic.StableHlo.Predicate
open Idealize.ShloMosaic.RowIndexed

theorem scatterAdd_rows_apply {φ : FTy} {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![R, 1]⟩ w) (upd : FVec Ideal ⟨2, ![R, C]⟩ φ) (n : Fin N) (q : Fin C) :
    Host.scatterAdd d x idx upd (ix2 n q)
      = x (ix2 n q) + ∑ e ∈ Finset.univ.filter (fun e : Fin R => (idx (ixP e)).toInt = (n.val : Int)), upd (ix2 e q) := by
  show Ideal.hostScatterAdd d x idx upd (ix2 n q) = _
  unfold Ideal.hostScatterAdd
  congr 1
  have hland : ∀ (a : Fin R) (b : Fin C),
      d.resultIdx? (ix2 a b) idx = some (ix2 n q) ↔ (idx (ixP a)).toInt = (n.val : Int) ∧ b = q :=
    fun a b => resultIdx_rows d huw hiw hsd hivd idx a b (ix2 n q)
  refine Finset.sum_nbij' (fun j => (idxEquiv2 j).1) (fun e => ix2 e q) ?_ ?_ ?_ ?_ ?_
  · intro j hj
    obtain ⟨a, b, rfl⟩ : ∃ a b, j = ix2 a b := ⟨j 0, j 1, eq_ix2 j⟩
    have hj' := (hland a b).mp (Finset.mem_filter.mp hj).2
    exact Finset.mem_filter.mpr ⟨Finset.mem_univ _, hj'.1⟩
  · intro e he
    exact Finset.mem_filter.mpr ⟨Finset.mem_univ _, (hland e q).mpr ⟨(Finset.mem_filter.mp he).2, rfl⟩⟩
  · intro j hj
    obtain ⟨a, b, rfl⟩ : ∃ a b, j = ix2 a b := ⟨j 0, j 1, eq_ix2 j⟩
    have hb : b = q := ((hland a b).mp (Finset.mem_filter.mp hj).2).2
    subst hb
    rfl
  · intro e _
    rfl
  · intro j hj
    obtain ⟨a, b, rfl⟩ : ∃ a b, j = ix2 a b := ⟨j 0, j 1, eq_ix2 j⟩
    have hb : b = q := ((hland a b).mp (Finset.mem_filter.mp hj).2).2
    subst hb
    rfl

theorem scatterAdd_rows_slice {φ : FTy} {N C C' R w off : Nat}
    (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (d' : ScatterDims ⟨2, ![N, C']⟩ ⟨2, ![R, 1]⟩ ⟨2, ![R, C']⟩)
    (huw' : d'.updateWindowDims = [1]) (hiw' : d'.insertedWindowDims = [0]) (hsd' : d'.scatterDimsToOperandDims = [0])
    (hivd' : d'.indexVectorDim = 1)
    (x : FVec Ideal ⟨2, ![N, C]⟩ φ) (x' : FVec Ideal ⟨2, ![N, C']⟩ φ) (idx : IVec ⟨2, ![R, 1]⟩ w)
    (upd : FVec Ideal ⟨2, ![R, C]⟩ φ) (upd' : FVec Ideal ⟨2, ![R, C']⟩ φ)
    (hsl : (⟨2, ![N, C]⟩ : Shape).Slices ![0, off] ⟨2, ![N, C']⟩)
    (hx : ∀ (n : Fin N) (q : Fin C') (k : Fin C), k.val = off + q.val → x' (ix2 n q) = x (ix2 n k))
    (hu : ∀ (e : Fin R) (q : Fin C') (k : Fin C), k.val = off + q.val → upd' (ix2 e q) = upd (ix2 e k)) :
    extractStridedSlice ⟨2, ![N, C']⟩ ![0, off] (Host.scatterAdd d x idx upd) hsl = Host.scatterAdd d' x' idx upd' := by
  funext j
  obtain ⟨n, q, rfl⟩ : ∃ n q, j = ix2 n q := ⟨j 0, j 1, eq_ix2 j⟩
  have hk : off + q.val < C := by
    have h := hsl.2 (1 : Fin 2)
    have hq := q.isLt
    show off + q.val < C
    have h' : off + C' ≤ C := h
    omega
  rw [extractStridedSlice_apply ![0, off] _ hsl (ix2 n q) (ix2 n ⟨off + q.val, hk⟩) (fun a => by
    match a with
    | ⟨0, _⟩ => show n.val = 0 + n.val; omega
    | ⟨1, _⟩ => rfl)]
  rw [scatterAdd_rows_apply d huw hiw hsd hivd, scatterAdd_rows_apply d' huw' hiw' hsd' hivd']
  rw [hx n q ⟨off + q.val, hk⟩ rfl]
  congr 1
  exact Finset.sum_congr rfl (fun e _ => (hu e q ⟨off + q.val, hk⟩ rfl).symm)

theorem scatterAdd_rows_concat_slice {φ : FTy} {N C C' R w off : Nat}
    (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (d' : ScatterDims ⟨2, ![N, C']⟩ ⟨2, ![R, 1]⟩ ⟨2, ![R, C']⟩)
    (huw' : d'.updateWindowDims = [1]) (hiw' : d'.insertedWindowDims = [0]) (hsd' : d'.scatterDimsToOperandDims = [0])
    (hivd' : d'.indexVectorDim = 1)
    (x : FVec Ideal ⟨2, ![N, C]⟩ φ) (x' : FVec Ideal ⟨2, ![N, C']⟩ φ) (idx : IVec ⟨2, ![R, 1]⟩ w)
    (xs : List ((s : Shape) × (s.Idx → Ideal φ)))
    (hcat : Shape.Concatenates (xs.map (·.1)) ⟨2, ![R, C]⟩ 1)
    (k : Nat) (hk : k < xs.length) (upd' : FVec Ideal ⟨2, ![R, C']⟩ φ) (hxk : xs[k] = ⟨⟨2, ![R, C']⟩, upd'⟩)
    (hpre : (((xs.take k).map (·.1)).map fun s : Shape =>
      if h : s.rank = (⟨2, ![R, C]⟩ : Shape).rank then s.size ((1 : Fin (⟨2, ![R, C]⟩ : Shape).rank).cast h.symm) else 0).sum = off)
    (hsl : (⟨2, ![N, C]⟩ : Shape).Slices ![0, off] ⟨2, ![N, C']⟩)
    (hx : ∀ (n : Fin N) (q : Fin C') (c : Fin C), c.val = off + q.val → x' (ix2 n q) = x (ix2 n c)) :
    extractStridedSlice ⟨2, ![N, C']⟩ ![0, off] (Host.scatterAdd d x idx (concatenate ⟨2, ![R, C]⟩ 1 xs hcat)) hsl
      = Host.scatterAdd d' x' idx upd' := by
  refine scatterAdd_rows_slice d huw hiw hsd hivd d' huw' hiw' hsd' hivd' x x' idx _ upd' hsl hx ?_
  intro e q c hc
  refine (concatenate_apply_piece (1 : Fin 2) xs hcat (ix2 e c) k hk ⟨2, ![R, C']⟩ upd' hxk rfl off hpre (ix2 e q) ?_ ?_).symm
  · intro b hb
    match b with
    | ⟨0, _⟩ => rfl
    | ⟨1, _⟩ => exact absurd rfl hb
  · show off + q.val = c.val
    omega

end Idealize.ShloMosaic.ScatterAddRows

end
-- ==== Proof.HostStats.lean ====
import proofs.«425747_j24756191494619_2_alg».proof.Proof.Gen.KernelIdeal.Regions
import proofs.«425747_j24756191494619_2_alg».proof.Proof.RefRun
import proofs.«425747_j24756191494619_2_alg».proof.Proof.LibScatterAddRows
import proofs.«425747_j24756191494619_2_alg».proof.Proof.TakeRows
import Idealize.ShloMosaic.Lib.StableHlo.Run
import Idealize.ShloMosaic.PureOps.Ideal

noncomputable section

namespace Cert.HostStats

open Idealize.ShloMosaic Idealize.ShloMosaic.TcCoe Idealize.ShloMosaic.StableHlo

variable {F : FTy → Type} [FloatOps F]

section
open Cert.KernelIdeal Cert.KernelIdeal.Gen

noncomputable def col (src : IVec S800000 32) : IVec S800000x1 32 := broadcastInDim S800000x1 ![0] bcast_S800000_S800000x1_0 src
noncomputable def bc (c : FVec F S50000x1 .f32) : FVec F S50000x128 .f32 := broadcastInDim S50000x128 ![0, 1] bcast_S50000x1_S50000x128_0_1 c
noncomputable def splat (b : BitVec 32) : FVec F S50000x128 .f32 := broadcastInDim S50000x128 ![] bcast_S_S50000x128 (constant S_ .f32 b)
noncomputable def cntOf (c : FVec F S50000x1 .f32) : FVec F S50000x1 .f32 :=
  maximumf c (broadcastInDim S50000x1 ![] bcast_S_S50000x1 (constant S_ .f32 0x3F800000#32))
noncomputable def meanOf (s : FVec F S50000x128 .f32) (c : FVec F S50000x1 .f32) : FVec F S50000x128 .f32 := Host.divf s (bc (cntOf c))
noncomputable def dltOf (s s2 : FVec F S50000x128 .f32) (c : FVec F S50000x1 .f32) : FVec F S50000x128 .f32 :=
  subf (meanOf s2 c) (mulf (meanOf s c) (meanOf s c))
noncomputable def relu (x : FVec F S50000x128 .f32) : FVec F S50000x128 .f32 := maximumf x (splat 0x00000000#32)
noncomputable def sqe (x : FVec F S50000x128 .f32) : FVec F S50000x128 .f32 := Host.sqrt (addf x (splat 0x358637BD#32))
noncomputable def cube (d : FVec F S800000x128 .f32) : FVec F S800000x128 .f32 := mulf (mulf d d) d
/-- NaN to zero, then +∞ to the largest finite value, then −∞ to the smallest. -/
noncomputable def n2n (x : FVec F S50000x128 .f32) : FVec F S50000x128 .f32 :=
  select (cmpf .oeq (select (cmpf .oeq (select (cmpf .une x x) (splat 0x00000000#32) x) (splat 0x7F800000#32)) (splat 0x7F7FFFFF#32)
      (select (cmpf .une x x) (splat 0x00000000#32) x)) (splat 0xFF800000#32)) (splat 0xFF7FFFFF#32)
    (select (cmpf .oeq (select (cmpf .une x x) (splat 0x00000000#32) x) (splat 0x7F800000#32)) (splat 0x7F7FFFFF#32)
      (select (cmpf .une x x) (splat 0x00000000#32) x))

noncomputable def skewOf (s3 : FVec F S50000x128 .f32) (c : FVec F S50000x1 .f32) (sg : FVec F S50000x128 .f32) : FVec F S50000x128 .f32 :=
  Host.divf (Host.divf s3 (bc c)) (mulf (mulf sg sg) sg)
noncomputable def kurtOf (s4 : FVec F S50000x128 .f32) (c : FVec F S50000x1 .f32) (sg : FVec F S50000x128 .f32) : FVec F S50000x128 .f32 :=
  Host.divf (Host.divf s4 (bc c)) (mulf (mulf sg sg) (mulf sg sg))
noncomputable def rowsAt (mn : FVec F S50000x128 .f32) (i : IVec S800000x1 32) : FVec F S800000x128 .f32 :=
  Host.gather gather_S50000x128_S800000x1_S800000x128_1_0_n_n_0_1_1128 mn i

/-- Count, cleaned mean, deviation, cleaned skewness and kurtosis of the messages at each node, from the per-node sums
    of ones, messages and squared messages and the maps that sum the third and fourth powers of a deviation. -/
noncomputable def feat (c : FVec F S50000x1 .f32) (s s2 : FVec F S50000x128 .f32) (S3 S4 : FVec F S800000x128 .f32 → FVec F S50000x128 .f32)
    (msg : FVec F S800000x128 .f32) (i : IVec S800000x1 32) :
    FVec F S50000x1 .f32 × FVec F S50000x128 .f32 × FVec F S50000x128 .f32 × FVec F S50000x128 .f32 × FVec F S50000x128 .f32 :=
  (c, n2n (meanOf s c), sqe (n2n (relu (dltOf s s2 c))),
    n2n (skewOf (S3 (subf msg (rowsAt (meanOf s c) i))) (cntOf c) (sqe (relu (dltOf s s2 c)))),
    n2n (kurtOf (S4 (subf msg (rowsAt (meanOf s c) i))) (cntOf c) (sqe (relu (dltOf s s2 c)))))

noncomputable def wide3 (i : IVec S800000x1 32) (msg : FVec F S800000x128 .f32) : FVec F S50000x257 .f32 :=
  Host.scatterAdd scatter_S50000x257_S800000x1_S800000x257_1_0_0_1
    (broadcastInDim S50000x257 ![] bcast_S_S50000x257 (constant S_ .f32 0x00000000#32)) i
    (concatenate S800000x257 1 [⟨S800000x1, broadcastInDim S800000x1 ![] bcast_S_S800000x1 (constant S_ .f32 0x3F800000#32)⟩,
      ⟨S800000x128, msg⟩, ⟨S800000x128, mulf msg msg⟩] concatenates_S800000x1_S800000x128_S800000x128_S800000x257_d1)
noncomputable def wide2 (i : IVec S800000x1 32) (d : FVec F S800000x128 .f32) : FVec F S50000x256 .f32 :=
  Host.scatterAdd scatter_S50000x256_S800000x1_S800000x256_1_0_0_1
    (broadcastInDim S50000x256 ![] bcast_S_S50000x256 (constant S_ .f32 0x00000000#32)) i
    (concatenate S800000x256 1 [⟨S800000x128, cube d⟩, ⟨S800000x128, mulf (cube d) d⟩] concatenates_S800000x128_S800000x128_S800000x256_d1)

/-- A stretch leaves a buffer it does not write as it found it. -/
theorem kkeep (W : Valuation τ sig (Elt F)) {r : Ref sig .tc} :
    (r ∉ hostOps1_W → after hostOps1 W (no_index (Proc.devRef .tc r)) = W (Proc.devRef .tc r))
    ∧ (r ∉ hostOps1_1_W → after hostOps1_1 W (no_index (Proc.devRef .tc r)) = W (Proc.devRef .tc r))
    ∧ (r ∉ hostOps1_2_W → after hostOps1_2 W (no_index (Proc.devRef .tc r)) = W (Proc.devRef .tc r))
    ∧ (r ∉ hostOps1_3_W → after hostOps1_3 W (no_index (Proc.devRef .tc r)) = W (Proc.devRef .tc r))
    ∧ (r ∉ hostOps1_4_W → after hostOps1_4 W (no_index (Proc.devRef .tc r)) = W (Proc.devRef .tc r))
    ∧ (r ∉ hostOps1_5_W → after hostOps1_5 W (no_index (Proc.devRef .tc r)) = W (Proc.devRef .tc r))
    ∧ (r ∉ hostOps1_6_W → after hostOps1_6 W (no_index (Proc.devRef .tc r)) = W (Proc.devRef .tc r))
    ∧ (r ∉ hostOps1_7_W → after hostOps1_7 W (no_index (Proc.devRef .tc r)) = W (Proc.devRef .tc r))
    ∧ (r ∉ hostOps1_8_W → after hostOps1_8 W (no_index (Proc.devRef .tc r)) = W (Proc.devRef .tc r))
    ∧ (r ∉ hostOps1_9_W → after hostOps1_9 W (no_index (Proc.devRef .tc r)) = W (Proc.devRef .tc r))
    ∧ (r ∉ hostOps1_10_W → after hostOps1_10 W (no_index (Proc.devRef .tc r)) = W (Proc.devRef .tc r))
    ∧ (r ∉ hostOps1_11_W → after hostOps1_11 W (no_index (Proc.devRef .tc r)) = W (Proc.devRef .tc r)) :=
  ⟨after_of_writes_sub _ _ hostOps1_writes, after_of_writes_sub _ _ hostOps1_1_writes, after_of_writes_sub _ _ hostOps1_2_writes,
    after_of_writes_sub _ _ hostOps1_3_writes, after_of_writes_sub _ _ hostOps1_4_writes, after_of_writes_sub _ _ hostOps1_5_writes,
    after_of_writes_sub _ _ hostOps1_6_writes, after_of_writes_sub _ _ hostOps1_7_writes, after_of_writes_sub _ _ hostOps1_8_writes,
    after_of_writes_sub _ _ hostOps1_9_writes, after_of_writes_sub _ _ hostOps1_10_writes, after_of_writes_sub _ _ hostOps1_11_writes⟩

/-- The kernel program's twelve stretches of host operations between its two networks. -/
abbrev krun (W : Valuation τ sig (Elt F)) : Valuation τ sig (Elt F) :=
  after hostOps1_11 (after hostOps1_10 (after hostOps1_9 (after hostOps1_8 (after hostOps1_7 (after hostOps1_6 (after hostOps1_5
    (after hostOps1_4 (after hostOps1_3 (after hostOps1_2 (after hostOps1_1 (after hostOps1 W)))))))))))

noncomputable def kc (i : IVec S800000x1 32) (msg : FVec F S800000x128 .f32) : FVec F S50000x1 .f32 :=
  extractStridedSlice S50000x1 ![0, 0] (wide3 i msg) slices_S50000x257_S50000x1_0_0
noncomputable def ks (i : IVec S800000x1 32) (msg : FVec F S800000x128 .f32) : FVec F S50000x128 .f32 :=
  extractStridedSlice S50000x128 ![0, 1] (wide3 i msg) slices_S50000x257_S50000x128_0_1
noncomputable def kq (i : IVec S800000x1 32) (msg : FVec F S800000x128 .f32) : FVec F S50000x128 .f32 :=
  extractStridedSlice S50000x128 ![0, 129] (wide3 i msg) slices_S50000x257_S50000x128_0_129
noncomputable def k3 (i : IVec S800000x1 32) (d : FVec F S800000x128 .f32) : FVec F S50000x128 .f32 :=
  extractStridedSlice S50000x128 ![0, 0] (wide2 i d) slices_S50000x256_S50000x128_0_0
noncomputable def k4 (i : IVec S800000x1 32) (d : FVec F S800000x128 .f32) : FVec F S50000x128 .f32 :=
  extractStridedSlice S50000x128 ![0, 128] (wide2 i d) slices_S50000x256_S50000x128_0_128

/-- What each stretch writes, from what it reads. -/
theorem kstage1 (W : Valuation τ sig (Elt F)) :
    (after hostOps1 W (no_index (Proc.devRef .tc main_v16)) = kc (col (W (Proc.devRef .tc main_v1))) (W (Proc.devRef .tc main_v9)))
    ∧ (after hostOps1 W (no_index (Proc.devRef .tc main_v18)) = cntOf (kc (col (W (Proc.devRef .tc main_v1))) (W (Proc.devRef .tc main_v9))))
    ∧ (after hostOps1 W (no_index (Proc.devRef .tc main_v21))
        = meanOf (ks (col (W (Proc.devRef .tc main_v1))) (W (Proc.devRef .tc main_v9))) (kc (col (W (Proc.devRef .tc main_v1))) (W (Proc.devRef .tc main_v9))))
    ∧ (after hostOps1 W (no_index (Proc.devRef .tc main_v26))
        = dltOf (ks (col (W (Proc.devRef .tc main_v1))) (W (Proc.devRef .tc main_v9))) (kq (col (W (Proc.devRef .tc main_v1))) (W (Proc.devRef .tc main_v9)))
            (kc (col (W (Proc.devRef .tc main_v1))) (W (Proc.devRef .tc main_v9)))) := by
  refine ⟨?_, ?_, ?_, ?_⟩ <;> (after_results_simp; rfl)

theorem kstage2 (W : Valuation τ sig (Elt F)) :
    (after hostOps1_1 W (no_index (Proc.devRef .tc main_v27)) = relu (W (Proc.devRef .tc main_v26)))
    ∧ (after hostOps1_2 W (no_index (Proc.devRef .tc main_v30)) = sqe (W (Proc.devRef .tc main_v27)))
    ∧ (after hostOps1_4 W (no_index (Proc.devRef .tc main_v45)) = skewOf (k3 (col (W (Proc.devRef .tc main_v1)))
        (subf (W (Proc.devRef .tc main_v9)) (W (Proc.devRef .tc main_v31)))) (W (Proc.devRef .tc main_v18)) (W (Proc.devRef .tc main_v30)))
    ∧ (after hostOps1_4 W (no_index (Proc.devRef .tc main_v51)) = kurtOf (k4 (col (W (Proc.devRef .tc main_v1)))
        (subf (W (Proc.devRef .tc main_v9)) (W (Proc.devRef .tc main_v31)))) (W (Proc.devRef .tc main_v18)) (W (Proc.devRef .tc main_v30)))
    ∧ (after hostOps1_7 W (no_index (Proc.devRef .tc main_v56)) = sqe (W (Proc.devRef .tc main_v53))) := by
  refine ⟨?_, ?_, ?_, ?_, ?_⟩ <;> (after_results_simp; rfl)

theorem kstage3 (W : Valuation τ sig (Elt F)) :
    (after hostOps1_5 W (no_index (Proc.devRef .tc main_v52)) = n2n (W (Proc.devRef .tc main_v21)))
    ∧ (after hostOps1_6 W (no_index (Proc.devRef .tc main_v53)) = n2n (W (Proc.devRef .tc main_v27)))
    ∧ (after hostOps1_8 W (no_index (Proc.devRef .tc main_v57)) = n2n (W (Proc.devRef .tc main_v45)))
    ∧ (after hostOps1_9 W (no_index (Proc.devRef .tc main_v58)) = n2n (W (Proc.devRef .tc main_v51))) := by
  refine ⟨?_, ?_, ?_, ?_⟩ <;> (after_results_simp; rfl)

/-- The kernel program's five statistics from the source indices and the messages. -/
noncomputable def kfeat (W : Valuation τ sig (Elt F)) :=
  feat (kc (col (W (Proc.devRef .tc main_v1))) (W (Proc.devRef .tc main_v9))) (ks (col (W (Proc.devRef .tc main_v1))) (W (Proc.devRef .tc main_v9)))
    (kq (col (W (Proc.devRef .tc main_v1))) (W (Proc.devRef .tc main_v9))) (k3 (col (W (Proc.devRef .tc main_v1)))) (k4 (col (W (Proc.devRef .tc main_v1))))
    (W (Proc.devRef .tc main_v9)) (col (W (Proc.devRef .tc main_v1)))

theorem kfinal (W : Valuation τ sig (Elt F))
    (hs : ∀ e : S800000.Idx, 0 ≤ ((W (Proc.devRef .tc main_v1) : IVec S800000 32) e).toInt ∧ ((W (Proc.devRef .tc main_v1) : IVec S800000 32) e).toInt < 50000)
    (hb : ∀ n : S50000.Idx, 0 ≤ ((W (Proc.devRef .tc main_arg5) : IVec S50000 32) n).toInt ∧ ((W (Proc.devRef .tc main_arg5) : IVec S50000 32) n).toInt < 8) :
    ((krun W (Proc.devRef .tc main_v16) : FVec F S50000x1 .f32), (krun W (Proc.devRef .tc main_v52) : FVec F S50000x128 .f32),
        (krun W (Proc.devRef .tc main_v56) : FVec F S50000x128 .f32), (krun W (Proc.devRef .tc main_v57) : FVec F S50000x128 .f32),
        (krun W (Proc.devRef .tc main_v58) : FVec F S50000x128 .f32)) = kfeat W
    ∧ (krun W (Proc.devRef .tc main_v59) : FVec F S50000x64 .f32)
      = Host.gather gather_S8x64_S50000x1_S50000x64_1_0_n_n_0_1_164 (W (Proc.devRef .tc main_arg4))
          (broadcastInDim S50000x1 ![0] bcast_S50000_S50000x1_0 (W (Proc.devRef .tc main_arg5))) := by
  have e1 : after hostOps1_2 (after hostOps1_1 (after hostOps1 W)) (Proc.devRef .tc main_v1) = W (Proc.devRef .tc main_v1) := by
    simp (disch := decide) only [kkeep]
  have e5 : after hostOps1_9 (after hostOps1_8 (after hostOps1_7 (after hostOps1_6 (after hostOps1_5 (after hostOps1_4 (after hostOps1_3
      (after hostOps1_2 (after hostOps1_1 (after hostOps1 W))))))))) (Proc.devRef .tc main_arg5) = W (Proc.devRef .tc main_arg5) := by
    simp (disch := decide) only [kkeep]
  refine ⟨?_, ?_⟩ <;> simp (disch := first | (rw [e1]; exact hs) | (rw [e5]; exact hb) | decide) only [↓kkeep, ↓kstage1, ↓kstage2, ↓kstage3, ↓TakeRows.take_mean, ↓TakeRows.take_u]
  rfl

end

section
open Cert.ReferenceIdeal Cert.ReferenceIdeal.Gen Cert.ReferenceIdeal.Ran

noncomputable def rs (i : IVec S800000x1 32) (x : FVec F S800000x128 .f32) : FVec F S50000x128 .f32 :=
  Host.scatterAdd scatter_S50000x128_S800000x1_S800000x128_1_0_0_1 (broadcastInDim S50000x128 ![] bcast_S_S50000x128 (constant S_ .f32 0x00000000#32)) i x
noncomputable def rc (i : IVec S800000x1 32) : FVec F S50000x1 .f32 :=
  Host.scatterAdd scatter_S50000x1_S800000x1_S800000x1_1_0_0_1 (broadcastInDim S50000x1 ![] bcast_S_S50000x1 (constant S_ .f32 0x00000000#32)) i
    (broadcastInDim S800000x1 ![] bcast_S_S800000x1 (constant S_ .f32 0x3F800000#32))
/-- Negative edge indices raised by the node count. -/
noncomputable def wrap (src : IVec S800000 32) : IVec S800000 32 :=
  select (cmpi .slt src (broadcastInDim S800000 ![] bcast_S_S800000 (constantI S_ 32 0#32)))
    (addi src (broadcastInDim S800000 ![] bcast_S_S800000 (constantI S_ 32 50000#32))) src
/-- Negative graph indices raised by the graph count. -/
noncomputable def wrap8 (b : IVec S50000 32) : IVec S50000 32 :=
  select (cmpi .slt b (broadcastInDim S50000 ![] bcast_S_S50000 (constantI S_ 32 0#32)))
    (addi b (broadcastInDim S50000 ![] bcast_S_S50000 (constantI S_ 32 8#32))) b

theorem rkeep (V : Valuation τ sig (Elt F)) {r : Ref sig .tc} :
    (r ∉ opsB0_W → after opsB0 V (no_index (Proc.devRef .tc r)) = V (Proc.devRef .tc r))
    ∧ (r ∉ opsB1_W → after opsB1 V (no_index (Proc.devRef .tc r)) = V (Proc.devRef .tc r))
    ∧ (r ∉ opsB2_W → after opsB2 V (no_index (Proc.devRef .tc r)) = V (Proc.devRef .tc r))
    ∧ (r ∉ opsB3_W → after opsB3 V (no_index (Proc.devRef .tc r)) = V (Proc.devRef .tc r))
    ∧ (r ∉ opsB4_W → after opsB4 V (no_index (Proc.devRef .tc r)) = V (Proc.devRef .tc r))
    ∧ (r ∉ opsC_W → after opsC V (no_index (Proc.devRef .tc r)) = V (Proc.devRef .tc r)) :=
  ⟨after_of_writes_sub _ _ opsB0_writes, after_of_writes_sub _ _ opsB1_writes, after_of_writes_sub _ _ opsB2_writes,
    after_of_writes_sub _ _ opsB3_writes, after_of_writes_sub _ _ opsB4_writes, after_of_writes_sub _ _ opsC_writes⟩

theorem rstage1 (V : Valuation τ sig (Elt F)) :
    (after opsB0 V (no_index (Proc.devRef .tc main_v24)) = rc (col (V (Proc.devRef .tc main_v1))))
    ∧ (after opsB0 V (no_index (Proc.devRef .tc main_v26)) = cntOf (rc (col (V (Proc.devRef .tc main_v1)))))
    ∧ (after opsB0 V (no_index (Proc.devRef .tc main_v31))
        = meanOf (rs (col (V (Proc.devRef .tc main_v1))) (V (Proc.devRef .tc main_v20))) (rc (col (V (Proc.devRef .tc main_v1)))))
    ∧ (after opsB0 V (no_index (Proc.devRef .tc main_v39))
        = dltOf (rs (col (V (Proc.devRef .tc main_v1))) (V (Proc.devRef .tc main_v20)))
            (rs (col (V (Proc.devRef .tc main_v1))) (mulf (V (Proc.devRef .tc main_v20)) (V (Proc.devRef .tc main_v20)))) (rc (col (V (Proc.devRef .tc main_v1))))) := by
  refine ⟨?_, ?_, ?_, ?_⟩ <;> (after_results_simp; rfl)

theorem rstage2 (V : Valuation τ sig (Elt F)) :
    (after opsB1 V (no_index (Proc.devRef .tc main_v40)) = relu (V (Proc.devRef .tc main_v39)))
    ∧ (after opsB1 V (no_index (Proc.devRef .tc main_v43)) = sqe (relu (V (Proc.devRef .tc main_v39))))
    ∧ (after opsB1 V (no_index (Proc.devRef .tc main_v48)) = wrap (V (Proc.devRef .tc main_v1)))
    ∧ (after opsB2 V (no_index (Proc.devRef .tc main_v61)) = skewOf (rs (col (V (Proc.devRef .tc main_v1)))
        (cube (subf (V (Proc.devRef .tc main_v20)) (rowsAt (V (Proc.devRef .tc main_v31)) (col (V (Proc.devRef .tc main_v48)))))))
        (V (Proc.devRef .tc main_v26)) (V (Proc.devRef .tc main_v43)))
    ∧ (after opsB2 V (no_index (Proc.devRef .tc main_v70)) = kurtOf (rs (col (V (Proc.devRef .tc main_v1)))
        (mulf (cube (subf (V (Proc.devRef .tc main_v20)) (rowsAt (V (Proc.devRef .tc main_v31)) (col (V (Proc.devRef .tc main_v48))))))
          (subf (V (Proc.devRef .tc main_v20)) (rowsAt (V (Proc.devRef .tc main_v31)) (col (V (Proc.devRef .tc main_v48)))))))
        (V (Proc.devRef .tc main_v26)) (V (Proc.devRef .tc main_v43))) := by
  refine ⟨?_, ?_, ?_, ?_, ?_⟩ <;> (after_results_simp; rfl)

theorem rstage3 (V : Valuation τ sig (Elt F)) :
    (after opsB3 V (no_index (Proc.devRef .tc main_v71)) = n2n (V (Proc.devRef .tc main_v31)))
    ∧ (after opsB3 V (no_index (Proc.devRef .tc main_v75)) = sqe (n2n (V (Proc.devRef .tc main_v40))))
    ∧ (after opsB4 V (no_index (Proc.devRef .tc main_v76)) = n2n (V (Proc.devRef .tc main_v61)))
    ∧ (after opsB4 V (no_index (Proc.devRef .tc main_v77)) = n2n (V (Proc.devRef .tc main_v70)))
    ∧ (after opsC V (no_index (Proc.devRef .tc main_v84)) = Host.gather gather_S8x64_S50000x1_S50000x64_1_0_n_n_0_1_164 (V (Proc.devRef .tc main_arg4))
        (broadcastInDim S50000x1 ![0] bcast_S50000_S50000x1_0 (wrap8 (V (Proc.devRef .tc main_arg5))))) := by
  refine ⟨?_, ?_, ?_, ?_, ?_⟩ <;> (after_results_simp; rfl)

/-- The reference's five statistics from the source indices and the messages. -/
noncomputable def rfeat (V : Valuation τ sig (Elt F)) :=
  feat (rc (col (V (Proc.devRef .tc main_v1)))) (rs (col (V (Proc.devRef .tc main_v1))) (V (Proc.devRef .tc main_v20)))
    (rs (col (V (Proc.devRef .tc main_v1))) (mulf (V (Proc.devRef .tc main_v20)) (V (Proc.devRef .tc main_v20))))
    (fun d => rs (col (V (Proc.devRef .tc main_v1))) (cube d)) (fun d => rs (col (V (Proc.devRef .tc main_v1))) (mulf (cube d) d))
    (V (Proc.devRef .tc main_v20)) (col (wrap (V (Proc.devRef .tc main_v1))))

theorem rfinal (V : Valuation τ sig (Elt F)) :
    ((after opsC (after opsB V) (Proc.devRef .tc main_v24) : FVec F S50000x1 .f32), (after opsC (after opsB V) (Proc.devRef .tc main_v71) : FVec F S50000x128 .f32),
        (after opsC (after opsB V) (Proc.devRef .tc main_v75) : FVec F S50000x128 .f32), (after opsC (after opsB V) (Proc.devRef .tc main_v76) : FVec F S50000x128 .f32),
        (after opsC (after opsB V) (Proc.devRef .tc main_v77) : FVec F S50000x128 .f32)) = rfeat V
    ∧ (after opsC (after opsB V) (Proc.devRef .tc main_v84) : FVec F S50000x64 .f32)
      = Host.gather gather_S8x64_S50000x1_S50000x64_1_0_n_n_0_1_164 (V (Proc.devRef .tc main_arg4))
          (broadcastInDim S50000x1 ![0] bcast_S50000_S50000x1_0 (wrap8 (V (Proc.devRef .tc main_arg5)))) := by
  refine ⟨?_, ?_⟩ <;> simp (disch := decide) only [opsB, Ran.after_append, ↓rkeep, ↓rstage1, ↓rstage2, ↓rstage3]
  rfl

end

/-- Scatter-adding a column-wise concatenation and keeping one piece's columns is scatter-adding that piece. -/
theorem kc_eq (i : IVec Cert.KernelIdeal.S800000x1 32) (msg : FVec Ideal Cert.KernelIdeal.S800000x128 .f32) : kc i msg = rc i :=
  ScatterAddRows.scatterAdd_rows_concat_slice Cert.KernelIdeal.scatter_S50000x257_S800000x1_S800000x257_1_0_0_1 rfl rfl rfl rfl
    Cert.ReferenceIdeal.scatter_S50000x1_S800000x1_S800000x1_1_0_0_1 rfl rfl rfl rfl _ _ i _ _ 0 (by show (0 : Nat) < 3; omega) _ rfl rfl _ (fun _ _ _ _ => rfl)
theorem ks_eq (i : IVec Cert.KernelIdeal.S800000x1 32) (msg : FVec Ideal Cert.KernelIdeal.S800000x128 .f32) : ks i msg = rs i msg :=
  ScatterAddRows.scatterAdd_rows_concat_slice Cert.KernelIdeal.scatter_S50000x257_S800000x1_S800000x257_1_0_0_1 rfl rfl rfl rfl
    Cert.ReferenceIdeal.scatter_S50000x128_S800000x1_S800000x128_1_0_0_1 rfl rfl rfl rfl _ _ i _ _ 1 (by show (1 : Nat) < 3; omega) msg rfl rfl _ (fun _ _ _ _ => rfl)
theorem kq_eq (i : IVec Cert.KernelIdeal.S800000x1 32) (msg : FVec Ideal Cert.KernelIdeal.S800000x128 .f32) : kq i msg = rs i (mulf msg msg) :=
  ScatterAddRows.scatterAdd_rows_concat_slice Cert.KernelIdeal.scatter_S50000x257_S800000x1_S800000x257_1_0_0_1 rfl rfl rfl rfl
    Cert.ReferenceIdeal.scatter_S50000x128_S800000x1_S800000x128_1_0_0_1 rfl rfl rfl rfl _ _ i _ _ 2 (by show (2 : Nat) < 3; omega) (mulf msg msg) rfl rfl _ (fun _ _ _ _ => rfl)
theorem k3_eq (i : IVec Cert.KernelIdeal.S800000x1 32) (d : FVec Ideal Cert.KernelIdeal.S800000x128 .f32) : k3 i d = rs i (cube d) :=
  ScatterAddRows.scatterAdd_rows_concat_slice Cert.KernelIdeal.scatter_S50000x256_S800000x1_S800000x256_1_0_0_1 rfl rfl rfl rfl
    Cert.ReferenceIdeal.scatter_S50000x128_S800000x1_S800000x128_1_0_0_1 rfl rfl rfl rfl _ _ i _ _ 0 (by show (0 : Nat) < 2; omega) (cube d) rfl rfl _ (fun _ _ _ _ => rfl)
theorem k4_eq (i : IVec Cert.KernelIdeal.S800000x1 32) (d : FVec Ideal Cert.KernelIdeal.S800000x128 .f32) : k4 i d = rs i (mulf (cube d) d) :=
  ScatterAddRows.scatterAdd_rows_concat_slice Cert.KernelIdeal.scatter_S50000x256_S800000x1_S800000x256_1_0_0_1 rfl rfl rfl rfl
    Cert.ReferenceIdeal.scatter_S50000x128_S800000x1_S800000x128_1_0_0_1 rfl rfl rfl rfl _ _ i _ _ 1 (by show (1 : Nat) < 2; omega) (mulf (cube d) d) rfl rfl _ (fun _ _ _ _ => rfl)

/-- From equal messages, source vectors, per-graph tables and graph indices, all indices in range, the two programs
    leave the same six node features. -/
theorem agree (WK : Valuation Cert.KernelIdeal.τ Cert.KernelIdeal.sig (Elt Ideal)) (WR : Valuation Cert.ReferenceIdeal.τ Cert.ReferenceIdeal.sig (Elt Ideal))
    (hmsg : (WK (Proc.devRef .tc Cert.KernelIdeal.main_v9) : FVec Ideal Cert.KernelIdeal.S800000x128 .f32) = (WR (Proc.devRef .tc Cert.ReferenceIdeal.main_v20) : FVec Ideal Cert.ReferenceIdeal.S800000x128 .f32))
    (hsrc : (WK (Proc.devRef .tc Cert.KernelIdeal.main_v1) : IVec Cert.KernelIdeal.S800000 32) = (WR (Proc.devRef .tc Cert.ReferenceIdeal.main_v1) : IVec Cert.ReferenceIdeal.S800000 32))
    (hu : (WK (Proc.devRef .tc Cert.KernelIdeal.main_arg4) : FVec Ideal Cert.KernelIdeal.S8x64 .f32) = (WR (Proc.devRef .tc Cert.ReferenceIdeal.main_arg4) : FVec Ideal Cert.ReferenceIdeal.S8x64 .f32))
    (hb : (WK (Proc.devRef .tc Cert.KernelIdeal.main_arg5) : IVec Cert.KernelIdeal.S50000 32) = (WR (Proc.devRef .tc Cert.ReferenceIdeal.main_arg5) : IVec Cert.ReferenceIdeal.S50000 32))
    (hrs : ∀ e : Cert.KernelIdeal.S800000.Idx, 0 ≤ ((WK (Proc.devRef .tc Cert.KernelIdeal.main_v1) : IVec Cert.KernelIdeal.S800000 32) e).toInt ∧ ((WK (Proc.devRef .tc Cert.KernelIdeal.main_v1) : IVec Cert.KernelIdeal.S800000 32) e).toInt < 50000)
    (hrb : ∀ n : Cert.KernelIdeal.S50000.Idx, 0 ≤ ((WK (Proc.devRef .tc Cert.KernelIdeal.main_arg5) : IVec Cert.KernelIdeal.S50000 32) n).toInt ∧ ((WK (Proc.devRef .tc Cert.KernelIdeal.main_arg5) : IVec Cert.KernelIdeal.S50000 32) n).toInt < 8) :
    (krun WK (Proc.devRef .tc Cert.KernelIdeal.main_v16) : FVec Ideal Cert.KernelIdeal.S50000x1 .f32) = (after Cert.ReferenceIdeal.Ran.opsC (after Cert.ReferenceIdeal.Ran.opsB WR) (Proc.devRef .tc Cert.ReferenceIdeal.main_v24))
    ∧ (krun WK (Proc.devRef .tc Cert.KernelIdeal.main_v52) : FVec Ideal Cert.KernelIdeal.S50000x128 .f32) = (after Cert.ReferenceIdeal.Ran.opsC (after Cert.ReferenceIdeal.Ran.opsB WR) (Proc.devRef .tc Cert.ReferenceIdeal.main_v71))
    ∧ (krun WK (Proc.devRef .tc Cert.KernelIdeal.main_v56) : FVec Ideal Cert.KernelIdeal.S50000x128 .f32) = (after Cert.ReferenceIdeal.Ran.opsC (after Cert.ReferenceIdeal.Ran.opsB WR) (Proc.devRef .tc Cert.ReferenceIdeal.main_v75))
    ∧ (krun WK (Proc.devRef .tc Cert.KernelIdeal.main_v57) : FVec Ideal Cert.KernelIdeal.S50000x128 .f32) = (after Cert.ReferenceIdeal.Ran.opsC (after Cert.ReferenceIdeal.Ran.opsB WR) (Proc.devRef .tc Cert.ReferenceIdeal.main_v76))
    ∧ (krun WK (Proc.devRef .tc Cert.KernelIdeal.main_v58) : FVec Ideal Cert.KernelIdeal.S50000x128 .f32) = (after Cert.ReferenceIdeal.Ran.opsC (after Cert.ReferenceIdeal.Ran.opsB WR) (Proc.devRef .tc Cert.ReferenceIdeal.main_v77))
    ∧ (krun WK (Proc.devRef .tc Cert.KernelIdeal.main_v59) : FVec Ideal Cert.KernelIdeal.S50000x64 .f32) = (after Cert.ReferenceIdeal.Ran.opsC (after Cert.ReferenceIdeal.Ran.opsB WR) (Proc.devRef .tc Cert.ReferenceIdeal.main_v84)) := by
  obtain ⟨k, k59⟩ := kfinal WK hrs hrb
  obtain ⟨r, r84⟩ := rfinal WR
  have e : kfeat WK = rfeat WR := by
    unfold kfeat rfeat
    rw [kc_eq, ks_eq, kq_eq, funext (k3_eq _), funext (k4_eq _), hmsg, hsrc, show wrap _ = _ from Cert.KernelIdeal.TakeRows.wrap_id _ _ _ fun e => hsrc ▸ (hrs e).1]
  have h := k.trans (e.trans r.symm)
  simp only [Prod.mk.injEq] at h
  refine ⟨h.1, h.2.1, h.2.2.1, h.2.2.2.1, h.2.2.2.2, k59.trans (Eq.trans ?_ r84.symm)⟩
  rw [hu, hb, show wrap8 _ = _ from Cert.KernelIdeal.TakeRows.wrap_id _ _ _ fun e => hb ▸ (hrb e).1]
  rfl

end Cert.HostStats

end
-- ==== Proof.IndexRange.lean ====
import proofs.«425747_j24756191494619_2_alg».proof.Pre_finite_inputs
import proofs.«425747_j24756191494619_2_alg».proof.Proof.Gen.Pre_finite_inputs
import Idealize.ShloMosaic.Lib.ReduceAll

noncomputable section

namespace Cert.IndexRange

open Idealize.ShloMosaic
open Cert.Pre_finite_inputs

variable {F : FTy → Type} [FloatOps F] [Cert.Pre_finite_inputs.Facts]

instance : Subsingleton Cert.Pre_finite_inputs.S_.Idx := ⟨fun a b => funext fun d => d.elim0⟩

theorem range_of_cmp (w b : BitVec 32) (n : Int) (hb : b.toInt = n)
    (h0 : IntOp.cmpi .sge w (0#32) = 1#1) (h1 : IntOp.cmpi .slt w b = 1#1) : 0 ≤ w.toInt ∧ w.toInt < n := by
  rw [IntOp.cmpi_sge] at h0
  rw [IntOp.cmpi_slt, hb] at h1
  exact ⟨by simpa using h0, h1⟩

theorem of_pre (a0 : FVec F S50000x128 .f32) (a1 : FVec F S50000x64 .f32) (a2 : IVec S2x800000 32)
    (a3 : FVec F S800000x64 .f32) (a4 : FVec F S8x64 .f32) (a5 : IVec S50000 32)
    (a6 : FVec F S128x128 .f32) (a7 : FVec F S128 .f32) (a8 : FVec F S128x128 .f32) (a9 : FVec F S128 .f32)
    (a10 : FVec F S705x128 .f32) (a11 : FVec F S128 .f32) (a12 : FVec F S128x128 .f32) (a13 : FVec F S128 .f32)
    (h : Cert.Pre_finite_inputs.fn (F := F) a0 a1 a2 a3 a4 a5 a6 a7 a8 a9 a10 a11 a12 a13 = fun _ => 1#1) :
    (∀ i : Cert.Pre_finite_inputs.S2x800000.Idx, 0 ≤ (a2 i).toInt ∧ (a2 i).toInt < 50000)
      ∧ (∀ i : Cert.Pre_finite_inputs.S50000.Idx, 0 ≤ (a5 i).toInt ∧ (a5 i).toInt < 8) := by
  have e := congrFun h (fun d => d.elim0)
  unfold Cert.Pre_finite_inputs.fn Cert.Pre_finite_inputs.fn_part1 Cert.Pre_finite_inputs.fn_part2
    Cert.Pre_finite_inputs.fn_part3 Cert.Pre_finite_inputs.fn_part4 at e
  dsimp only at e
  obtain ⟨e', hB⟩ := IntOp.andi_eq_one.1 e
  obtain ⟨-, hE⟩ := IntOp.andi_eq_one.1 e'
  refine ⟨fun i => ?_, fun i => ?_⟩
  · have hi := Host.reduce_andi_all _ _ _ _ _ hE i
    obtain ⟨h0, h1⟩ := IntOp.andi_eq_one.1 hi
    exact range_of_cmp (a2 i) (50000#32) 50000 (by decide) h0 h1
  · have hi := Host.reduce_andi_all _ _ _ _ _ hB i
    obtain ⟨h0, h1⟩ := IntOp.andi_eq_one.1 hi
    exact range_of_cmp (a5 i) (8#32) 8 (by decide) h0 h1

end Cert.IndexRange

end
-- ==== Proof.Bridge.lean ====
import proofs.«425747_j24756191494619_2_alg».proof.Proof.Agreement
import proofs.«425747_j24756191494619_2_alg».proof.Proof.Launch
import proofs.«425747_j24756191494619_2_alg».proof.Proof.HostEdge
import proofs.«425747_j24756191494619_2_alg».proof.Proof.EdgeValue
import proofs.«425747_j24756191494619_2_alg».proof.Proof.NodeValue
import proofs.«425747_j24756191494619_2_alg».proof.Proof.RefRun
import proofs.«425747_j24756191494619_2_alg».proof.Proof.RefKept
import proofs.«425747_j24756191494619_2_alg».proof.Proof.RefEdge
import proofs.«425747_j24756191494619_2_alg».proof.Proof.RefNode
import proofs.«425747_j24756191494619_2_alg».proof.Proof.HostStats
import proofs.«425747_j24756191494619_2_alg».proof.Proof.IndexRange
import proofs.«425747_j24756191494619_2_alg».proof.Proof.Spec

noncomputable section

namespace Cert.Bridge

open Idealize.ShloMosaic Idealize.ShloMosaic.TcCoe Idealize.ShloMosaic.StableHlo Idealize.SL.Sem ValueIdx

variable [Cert.KernelIdeal.Facts] [Cert.ReferenceIdeal.Facts] [Cert.Pre_finite_inputs.Facts]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

local notation "W0" => launchContents m' c
local notation "WA" => after Cert.ReferenceIdeal.Ran.opsA (launchContents m' c)
local notation "WC" => after Cert.ReferenceIdeal.Ran.opsC (after Cert.ReferenceIdeal.Ran.opsB (after Cert.ReferenceIdeal.Ran.opsA (launchContents m' c)))

abbrev PreAt : Prop :=
  Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = (fun _ => 1#1)

theorem edge_range (hp : PreAt m c) : ∀ i : Cert.KernelIdeal.S2x800000.Idx,
    0 ≤ ((m ((c.tc : Thread Cert.KernelIdeal.nD Cert.KernelIdeal.τ).loc Cert.KernelIdeal.main_arg2) : IVec Cert.KernelIdeal.S2x800000 32) i).toInt ∧ ((m ((c.tc : Thread Cert.KernelIdeal.nD Cert.KernelIdeal.τ).loc Cert.KernelIdeal.main_arg2) : IVec Cert.KernelIdeal.S2x800000 32) i).toInt < 50000 :=
  (Cert.IndexRange.of_pre _ _ _ _ _ _ _ _ _ _ _ _ _ _ hp).1

theorem batch_range (hp : PreAt m c) : ∀ i : Cert.KernelIdeal.S50000.Idx,
    0 ≤ ((m ((c.tc : Thread Cert.KernelIdeal.nD Cert.KernelIdeal.τ).loc Cert.KernelIdeal.main_arg5) : IVec Cert.KernelIdeal.S50000 32) i).toInt ∧ ((m ((c.tc : Thread Cert.KernelIdeal.nD Cert.KernelIdeal.τ).loc Cert.KernelIdeal.main_arg5) : IVec Cert.KernelIdeal.S50000 32) i).toInt < 8 :=
  (Cert.IndexRange.of_pre _ _ _ _ _ _ _ _ _ _ _ _ _ _ hp).2

theorem WC_arg (r : Ref Cert.ReferenceIdeal.sig .tc) (hr : r ∈ Cert.ReferenceIdeal.Ran.args) :
    WC (Proc.devRef .tc r) = m' ((c.tc : Thread Cert.ReferenceIdeal.nD Cert.ReferenceIdeal.τ).loc r) :=
  (Cert.ReferenceIdeal.Ran.keptC _ r hr).trans ((Cert.ReferenceIdeal.Ran.keptB _ r hr).trans (Cert.ReferenceIdeal.Ran.keptA _ r hr))

theorem tgt_vec (ha : Agree m m' c) :
    (WA (Proc.devRef .tc Cert.ReferenceIdeal.main_v3) : IVec Cert.ReferenceIdeal.S800000 32)
      = Cert.KernelIdeal.HostEdge.rowOf ![1, 0] Cert.KernelIdeal.Gen.slices_S2x800000_S1x800000_1_0 (m ((c.tc : Thread Cert.KernelIdeal.nD Cert.KernelIdeal.τ).loc Cert.KernelIdeal.main_arg2)) := by
  funext j; obtain ⟨e, rfl⟩ : ∃ e, j = ix1 e := ⟨j 0, eq_ix1 j⟩
  rw [(Cert.ReferenceIdeal.RefEdge.src_tgt W0 e).2, Cert.KernelIdeal.HostEdge.rowOf_one_apply]
  exact congrFun ha.a2 _

theorem src_vec (ha : Agree m m' c) :
    (WA (Proc.devRef .tc Cert.ReferenceIdeal.main_v1) : IVec Cert.ReferenceIdeal.S800000 32)
      = Cert.KernelIdeal.HostEdge.rowOf ![0, 0] Cert.KernelIdeal.Gen.slices_S2x800000_S1x800000_0_0 (m ((c.tc : Thread Cert.KernelIdeal.nD Cert.KernelIdeal.τ).loc Cert.KernelIdeal.main_arg2)) := by
  funext j; obtain ⟨e, rfl⟩ : ∃ e, j = ix1 e := ⟨j 0, eq_ix1 j⟩
  rw [(Cert.ReferenceIdeal.RefEdge.src_tgt W0 e).1, Cert.KernelIdeal.HostEdge.rowOf_zero_apply]
  exact congrFun ha.a2 _

theorem xt_agree (hp : PreAt m c) (ha : Agree m m' c) :
    (Cert.KernelIdeal.Gen.V3 m c (Proc.devRef .tc Cert.KernelIdeal.main_v4) : FVec Ideal Cert.KernelIdeal.S800000x64 .f32)
      = (WA (Proc.devRef .tc Cert.ReferenceIdeal.main_v10) : FVec Ideal Cert.ReferenceIdeal.S800000x64 .f32) := by
  rw [Cert.KernelIdeal.HostEdge.xt_eq m c (edge_range m c hp),
    Cert.ReferenceIdeal.RefEdge.rows_xt W0 (fun e => by
      rw [tgt_vec m m' c ha]
      obtain ⟨i, hi⟩ := Cert.KernelIdeal.HostEdge.rowOf_mem ![1, 0] Cert.KernelIdeal.Gen.slices_S2x800000_S1x800000_1_0 (m ((c.tc : Thread Cert.KernelIdeal.nD Cert.KernelIdeal.τ).loc Cert.KernelIdeal.main_arg2)) e
      rw [hi]; exact (edge_range m c hp i).1),
    tgt_vec m m' c ha]
  show _ = Host.gather _ (m' ((c.tc : Thread Cert.ReferenceIdeal.nD Cert.ReferenceIdeal.τ).loc Cert.ReferenceIdeal.main_arg1)) _
  rw [ha.a1]
  rfl

theorem msg_agree (hp : PreAt m c) (ha : Agree m m' c) :
    (Cert.KernelIdeal.Launched.msgOut (F := Ideal) m c : FVec Ideal Cert.KernelIdeal.S800000x128 .f32)
      = (WA (Proc.devRef .tc Cert.ReferenceIdeal.main_v20) : FVec Ideal Cert.ReferenceIdeal.S800000x128 .f32) := by
  funext j; obtain ⟨e, q, rfl⟩ : ∃ e q, j = ix2 e q := ⟨j 0, j 1, eq_ix2 j⟩
  rw [Cert.KernelIdeal.EdgeValue.msg_apply m c e q, Cert.ReferenceIdeal.RefEdge.msg_apply W0 e q, xt_agree m m' c hp ha]
  show Cert.Spec.edgeRow _ _ _ _ _ _ q = Cert.Spec.edgeRow _ (fun i => (m' ((c.tc : Thread Cert.ReferenceIdeal.nD Cert.ReferenceIdeal.τ).loc Cert.ReferenceIdeal.main_arg3) : FVec Ideal Cert.ReferenceIdeal.S800000x64 .f32) (ix2 e i))
    (fun k' k => (m' ((c.tc : Thread Cert.ReferenceIdeal.nD Cert.ReferenceIdeal.τ).loc Cert.ReferenceIdeal.main_arg6) : FVec Ideal Cert.ReferenceIdeal.S128x128 .f32) (ix2 k' k)) (fun k => (m' ((c.tc : Thread Cert.ReferenceIdeal.nD Cert.ReferenceIdeal.τ).loc Cert.ReferenceIdeal.main_arg7) : FVec Ideal Cert.ReferenceIdeal.S128 .f32) (ix1 k))
    (fun k q' => (m' ((c.tc : Thread Cert.ReferenceIdeal.nD Cert.ReferenceIdeal.τ).loc Cert.ReferenceIdeal.main_arg8) : FVec Ideal Cert.ReferenceIdeal.S128x128 .f32) (ix2 k q')) (fun q' => (m' ((c.tc : Thread Cert.ReferenceIdeal.nD Cert.ReferenceIdeal.τ).loc Cert.ReferenceIdeal.main_arg9) : FVec Ideal Cert.ReferenceIdeal.S128 .f32) (ix1 q')) q
  rw [ha.a3, ha.a6, ha.a7, ha.a8, ha.a9]

theorem V4_msgE : Cert.KernelIdeal.Gen.V4 m (Cert.KernelIdeal.Launched.outsE m) c (Proc.devRef .tc Cert.KernelIdeal.main_v9) = Cert.KernelIdeal.Launched.msgOut m c := by
  rw [← Cert.KernelIdeal.Launched.V4_outs]; exact Cert.KernelIdeal.Launched.V4_msg m c

theorem V4_arg (r : Ref Cert.KernelIdeal.sig .tc) (h4 : r ∉ ([Cert.KernelIdeal.main_v9] : List (Ref Cert.KernelIdeal.sig .tc)))
    (h3 : r ∉ Cert.KernelIdeal.Gen.hostOps0_2_W) (h2 : r ∉ Cert.KernelIdeal.Gen.hostOps0_1_W) (h1 : r ∉ Cert.KernelIdeal.Gen.hostOps0_W) :
    Cert.KernelIdeal.Gen.V4 m (Cert.KernelIdeal.Launched.outsE m) c r = m ((c.tc : Thread Cert.KernelIdeal.nD Cert.KernelIdeal.τ).loc r) :=
  (Cert.KernelIdeal.Gen.V4_of m _ c r h4).trans ((Cert.KernelIdeal.Gen.V3_of m c r h3).trans ((Cert.KernelIdeal.Gen.V2_of m c r h2).trans (Cert.KernelIdeal.Gen.V1_of m c r h1)))

theorem stats (hp : PreAt m c) (ha : Agree m m' c) :
    (Cert.KernelIdeal.Gen.V16 m (Cert.KernelIdeal.Launched.outsE m) c (Proc.devRef .tc Cert.KernelIdeal.main_v16) : FVec Ideal Cert.KernelIdeal.S50000x1 .f32) = (WC (Proc.devRef .tc Cert.ReferenceIdeal.main_v24))
    ∧ (Cert.KernelIdeal.Gen.V16 m (Cert.KernelIdeal.Launched.outsE m) c (Proc.devRef .tc Cert.KernelIdeal.main_v52) : FVec Ideal Cert.KernelIdeal.S50000x128 .f32) = (WC (Proc.devRef .tc Cert.ReferenceIdeal.main_v71))
    ∧ (Cert.KernelIdeal.Gen.V16 m (Cert.KernelIdeal.Launched.outsE m) c (Proc.devRef .tc Cert.KernelIdeal.main_v56) : FVec Ideal Cert.KernelIdeal.S50000x128 .f32) = (WC (Proc.devRef .tc Cert.ReferenceIdeal.main_v75))
    ∧ (Cert.KernelIdeal.Gen.V16 m (Cert.KernelIdeal.Launched.outsE m) c (Proc.devRef .tc Cert.KernelIdeal.main_v57) : FVec Ideal Cert.KernelIdeal.S50000x128 .f32) = (WC (Proc.devRef .tc Cert.ReferenceIdeal.main_v76))
    ∧ (Cert.KernelIdeal.Gen.V16 m (Cert.KernelIdeal.Launched.outsE m) c (Proc.devRef .tc Cert.KernelIdeal.main_v58) : FVec Ideal Cert.KernelIdeal.S50000x128 .f32) = (WC (Proc.devRef .tc Cert.ReferenceIdeal.main_v77))
    ∧ (Cert.KernelIdeal.Gen.V16 m (Cert.KernelIdeal.Launched.outsE m) c (Proc.devRef .tc Cert.KernelIdeal.main_v59) : FVec Ideal Cert.KernelIdeal.S50000x64 .f32) = (WC (Proc.devRef .tc Cert.ReferenceIdeal.main_v84)) := by
  have hsrcK : (Cert.KernelIdeal.Gen.V4 m (Cert.KernelIdeal.Launched.outsE m) c (Proc.devRef .tc Cert.KernelIdeal.main_v1) : IVec Cert.KernelIdeal.S800000 32)
      = Cert.KernelIdeal.HostEdge.rowOf ![0, 0] Cert.KernelIdeal.Gen.slices_S2x800000_S1x800000_0_0 (m ((c.tc : Thread Cert.KernelIdeal.nD Cert.KernelIdeal.τ).loc Cert.KernelIdeal.main_arg2)) :=
    ((Cert.KernelIdeal.Gen.V4_of m (Cert.KernelIdeal.Launched.outsE m) c Cert.KernelIdeal.main_v1 (by decide)).trans ((Cert.KernelIdeal.Gen.V3_of m c Cert.KernelIdeal.main_v1 (by decide)).trans
      (Cert.KernelIdeal.Gen.V2_of m c Cert.KernelIdeal.main_v1 (by decide)))).trans (Cert.KernelIdeal.HostEdge.src_eq m c)
  exact Cert.HostStats.agree (Cert.KernelIdeal.Gen.V4 m (Cert.KernelIdeal.Launched.outsE m) c) WA
    ((V4_msgE m c).trans (msg_agree m m' c hp ha))
    (hsrcK.trans (src_vec m m' c ha).symm)
    ((V4_arg m c Cert.KernelIdeal.main_arg4 (by decide) (by decide) (by decide) (by decide)).trans (ha.a4.symm.trans (Cert.ReferenceIdeal.Ran.keptA W0 Cert.ReferenceIdeal.main_arg4 (by decide)).symm))
    ((V4_arg m c Cert.KernelIdeal.main_arg5 (by decide) (by decide) (by decide) (by decide)).trans (ha.a5.symm.trans (Cert.ReferenceIdeal.Ran.keptA W0 Cert.ReferenceIdeal.main_arg5 (by decide)).symm))
    (fun e => by
      rw [hsrcK]
      obtain ⟨i, hi⟩ := Cert.KernelIdeal.HostEdge.rowOf_mem ![0, 0] Cert.KernelIdeal.Gen.slices_S2x800000_S1x800000_0_0 (m ((c.tc : Thread Cert.KernelIdeal.nD Cert.KernelIdeal.τ).loc Cert.KernelIdeal.main_arg2)) e
      rw [hi]; exact edge_range m c hp i)
    (fun n => by
      rw [show (Cert.KernelIdeal.Gen.V4 m (Cert.KernelIdeal.Launched.outsE m) c (Proc.devRef .tc Cert.KernelIdeal.main_arg5) : IVec Cert.KernelIdeal.S50000 32) = m ((c.tc : Thread Cert.KernelIdeal.nD Cert.KernelIdeal.τ).loc Cert.KernelIdeal.main_arg5) from (V4_arg m c Cert.KernelIdeal.main_arg5 (by decide) (by decide) (by decide) (by decide))]
      exact batch_range m c hp n)

theorem result_eq (hp : PreAt m c) (ha : Agree m m' c) :
    (after Cert.ReferenceIdeal.Ran.ops W0 (Proc.devRef .tc Cert.ReferenceIdeal.main_v94) : FVec Ideal Cert.ReferenceIdeal.S50000x128 .f32)
      = (Cert.KernelIdeal.Launched.nodeOut (F := Ideal) m c : FVec Ideal Cert.KernelIdeal.S50000x128 .f32) := by
  rw [Cert.ReferenceIdeal.Ran.after_split]
  funext j; obtain ⟨n, q, rfl⟩ : ∃ n q, j = ix2 n q := ⟨j 0, j 1, eq_ix2 j⟩
  obtain ⟨h16, h52, h56, h57, h58, h59⟩ := stats m m' c hp ha
  rw [Cert.ReferenceIdeal.RefNode.out_apply WC n q, Cert.KernelIdeal.NodeValue.out_apply m c n q, h16, h52, h56, h57, h58, h59,
    WC_arg m' c Cert.ReferenceIdeal.main_arg0 (by decide), WC_arg m' c Cert.ReferenceIdeal.main_arg10 (by decide), WC_arg m' c Cert.ReferenceIdeal.main_arg11 (by decide),
    WC_arg m' c Cert.ReferenceIdeal.main_arg12 (by decide), WC_arg m' c Cert.ReferenceIdeal.main_arg13 (by decide), ha.a0, ha.a10, ha.a11, ha.a12, ha.a13]

end Cert.Bridge

end
-- ==== Proof.lean ====
/- Both programs compute an edge network on each edge's target-node features and attributes, five statistics per node of
   the messages scattered to their source nodes, and a node network on the 705 features so collected. On the extended
   reals a sum over a concatenation is the sum of the sums over its pieces, a scatter-add of a concatenation cut to a
   column block is the scatter-add of that block, and a take at indices in range is the gather. -/
import proofs.«425747_j24756191494619_2_alg».proof.Defs
import proofs.«425747_j24756191494619_2_alg».proof.Proof.Gen.Kernel
import proofs.«425747_j24756191494619_2_alg».proof.Proof.Gen.KernelIdeal
import proofs.«425747_j24756191494619_2_alg».proof.Proof.Gen.ReferenceIdeal
import proofs.«425747_j24756191494619_2_alg».proof.Proof.Gen.Pre_finite_inputs
import proofs.«425747_j24756191494619_2_alg».proof.Proof.BitsLaunch
import proofs.«425747_j24756191494619_2_alg».proof.Proof.Launch
import proofs.«425747_j24756191494619_2_alg».proof.Proof.RefRun
import proofs.«425747_j24756191494619_2_alg».proof.Proof.RefKept
import proofs.«425747_j24756191494619_2_alg».proof.Proof.Bridge
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => (θ_run Cert.Kernel.defs _ _).mono (fun _ h c => (h c).2) (Cert.Kernel.Launched.run_result (F := Bits) m ρ)

theorem frame_kernelIdeal [Cert.KernelIdeal.Facts] [Cert.Pre_finite_inputs.Facts] : Cert.frame_KernelIdeal :=
  fun m ρ _ => (θ_run Cert.KernelIdeal.defs _ _).mono (fun _ h c => (h c).2) (Cert.KernelIdeal.Launched.run_result (F := Ideal) m ρ)

theorem frame_reference [Cert.ReferenceIdeal.Facts] [Cert.Pre_finite_inputs.Facts] : Cert.frame_ReferenceIdeal :=
  fun m ρ _ => (θ_run Cert.ReferenceIdeal.defs _ _).mono (fun _ h c => by
    refine ⟨?_, ?_, ?_, ?_, ?_, ?_, ?_, ?_, ?_, ?_, ?_, ?_, ?_, ?_⟩ <;> exact (h c _).trans (Cert.ReferenceIdeal.Ran.kept m c _ (by decide)))
    (Cert.ReferenceIdeal.Ran.run (F := Ideal) m ρ)

theorem algebraic [Cert.KernelIdeal.Facts] [Cert.ReferenceIdeal.Facts] [Cert.Pre_finite_inputs.Facts] :
    Cert.algebraic_KernelIdeal_ReferenceIdeal := by
  intro m ρ m' ρ' hpre hag
  refine ⟨fun c => Cert.KernelIdeal.Launched.nodeOut (F := Ideal) m c, Cert.KernelIdeal.Launched.run_result (F := Ideal) m ρ, ?_⟩
  refine (θ_run Cert.ReferenceIdeal.defs _ _).mono (fun _ h c => ?_) (Cert.ReferenceIdeal.Ran.run (F := Ideal) m' ρ')
  obtain ⟨a0, a1, a2, a3, a4, a5, a6, a7, a8, a9, a10, a11, a12, a13⟩ := hag c
  refine ⟨(h c _).trans (Cert.Bridge.result_eq m m' c (hpre c) ⟨a0, a1, a2, a3, a4, a5, a6, a7, a8, a9, a10, a11, a12, a13⟩),
    ?_, ?_, ?_, ?_, ?_, ?_, ?_, ?_, ?_, ?_, ?_, ?_, ?_, ?_⟩ <;> exact (h c _).trans (Cert.ReferenceIdeal.Ran.kept m' c _ (by decide))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
